-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part5 {F : FTy → Type} [FloatOps F] (main_arg18 : FVec F S1000 .f32) (main_v83 : IVec S_ 1) (main_v84 : FVec F S1000 .f32) (main_cst_32 : FVec F S_ .f32) : IVec S_ 1 :=
  let main_v85 : FVec F S1000 .f32 := broadcastInDim S1000 ![] bcast_S_S1000 main_cst_32
  let main_v86 : IVec S1000 1 := cmpf .olt main_v84 main_v85
  let main_c_33 : IVec S_ 1 := constantI S_ 1 1#1
  let main_v87 : IVec S_ 1 := (fun x v => Host.reduce IntOp.andi x v reducesTo_S1000_S_d0 h_S_) main_v86 main_c_33
  let main_v88 : IVec S_ 1 := andi main_v83 main_v87
  let main_v89 : FVec F S1000 .f32 := Host.absf main_arg18
  let main_cst_34 : FVec F S_ .f32 := constant S_ .f32 0x7F800000#32
  let main_v90 : FVec F S1000 .f32 := broadcastInDim S1000 ![] bcast_S_S1000 main_cst_34
  let main_v91 : IVec S1000 1 := cmpf .olt main_v89 main_v90
  let main_c_35 : IVec S_ 1 := constantI S_ 1 1#1
  let main_v92 : IVec S_ 1 := (fun x v => Host.reduce IntOp.andi x v reducesTo_S1000_S_d0 h_S_) main_v91 main_c_35
  let main_v93 : IVec S_ 1 := andi main_v88 main_v92
  main_v93

def fn_part4 {F : FTy → Type} [FloatOps F] (main_arg14 : FVec F S1000 .f32) (main_arg15 : FVec F S1000 .f32) (main_arg16 : FVec F S1000 .f32) (main_arg17 : FVec F S1000 .f32) (main_arg18 : FVec F S1000 .f32) (main_v63 : IVec S_ 1) (main_v67 : IVec S_ 1) : IVec S_ 1 :=
  let main_v68 : IVec S_ 1 := andi main_v63 main_v67
  let main_v69 : FVec F S1000 .f32 := Host.absf main_arg14
  let main_cst_26 : FVec F S_ .f32 := constant S_ .f32 0x7F800000#32
  let main_v70 : FVec F S1000 .f32 := broadcastInDim S1000 ![] bcast_S_S1000 main_cst_26
  let main_v71 : IVec S1000 1 := cmpf .olt main_v69 main_v70
  let main_c_27 : IVec S_ 1 := constantI S_ 1 1#1
  let main_v72 : IVec S_ 1 := (fun x v => Host.reduce IntOp.andi x v reducesTo_S1000_S_d0 h_S_) main_v71 main_c_27
  let main_v73 : IVec S_ 1 := andi main_v68 main_v72
  let main_v74 : FVec F S1000 .f32 := Host.absf main_arg15
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  let main_v79 : FVec F S1000 .f32 := Host.absf main_arg16
  let main_cst_30 : FVec F S_ .f32 := constant S_ .f32 0x7F800000#32
  let main_v80 : FVec F S1000 .f32 := broadcastInDim S1000 ![] bcast_S_S1000 main_cst_30
  let main_v81 : IVec S1000 1 := cmpf .olt main_v79 main_v80
  let main_c_31 : IVec S_ 1 := constantI S_ 1 1#1
  let main_v82 : IVec S_ 1 := (fun x v => Host.reduce IntOp.andi x v reducesTo_S1000_S_d0 h_S_) main_v81 main_c_31
  let main_v83 : IVec S_ 1 := andi main_v78 main_v82
  let main_v84 : FVec F S1000 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1000x4096 .f32 := Host.absf main_arg13
  let main_cst_24 : FVec F S_ .f32 := constant S_ .f32 0x7F800000#32
  let main_v65 : FVec F S1000x4096 .f32 := broadcastInDim S1000x4096 ![] bcast_S_S1000x4096 main_cst_24
  let main_v66 : IVec S1000x4096 1 := cmpf .olt main_v64 main_v65
  let main_c_25 : IVec S_ 1 := constantI S_ 1 1#1
  let main_v67 : IVec S_ 1 := (fun x v => Host.reduce IntOp.andi x v reducesTo_S1000x4096_S_d0_1 h_S_) main_v66 main_c_25
  fn_part4 (F := F) main_arg14 main_arg15 main_arg16 main_arg17 main_arg18 main_v63 main_v67

def fn_part2 {F : FTy → Type} [FloatOps F] (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S1000x4096 .f32) (main_arg14 : FVec F S1000 .f32) (main_arg15 : FVec F S1000 .f32) (main_arg16 : FVec F S1000 .f32) (main_arg17 : FVec F S1000 .f32) (main_arg18 : FVec F S1000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S1x1000 : Shape := ⟨2, ![1, 1000]⟩
abbrev S8192x1000 : Shape := ⟨2, ![8192, 1000]⟩
abbrev S1000x512 : Shape := ⟨2, ![1000, 512]⟩
abbrev S1024x1000 : Shape := ⟨2, ![1024, 1000]⟩

abbrev nBuf : Space → Nat
  | .hbm => 37
  | .vmem => 46
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1000x4096, .f32⟩
  | .hbm, ⟨14, _⟩ => ⟨S1000, .f32⟩
  | .hbm, ⟨15, _⟩ => ⟨S1000, .f32⟩
  | .hbm, ⟨16, _⟩ => ⟨S1000, .f32⟩
  | .hbm, ⟨17, _⟩ => ⟨S1000, .f32⟩
  | .hbm, ⟨18, _⟩ => ⟨S1000, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S8192x4096, .bf16⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S8192x4096, .bf16⟩
  | .hbm, ⟨31, _⟩ => ⟨S1x1000, .f32⟩
  | .hbm, ⟨32, _⟩ => ⟨S1x1000, .f32⟩
  | .hbm, ⟨33, _⟩ => ⟨S1x1000, .f32⟩
  | .hbm, ⟨34, _⟩ => ⟨S1x1000, .f32⟩
  | .hbm, ⟨35, _⟩ => ⟨S1x1000, .f32⟩
  | .hbm, ⟨36, _⟩ => ⟨S8192x1000, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x512, .bf16⟩
  | .local _ .vmem, ⟨35, _⟩ => ⟨S1024x512, .bf16⟩
  | .local _ .vmem, ⟨36, _⟩ => ⟨S1000x512, .f32⟩
  | .local _ .vmem, ⟨37, _⟩ => ⟨S1000x512, .f32⟩
  | .local _ .vmem, ⟨38, _⟩ => ⟨S1x1000, .f32⟩
  | .local _ .vmem, ⟨39, _⟩ => ⟨S1x1000, .f32⟩
  | .local _ .vmem, ⟨40, _⟩ => ⟨S1x1000, .f32⟩
  | .local _ .vmem, ⟨41, _⟩ => ⟨S1x1000, .f32⟩
  | .local _ .vmem, ⟨42, _⟩ => ⟨S1x1000, .f32⟩
  | .local _ .vmem, ⟨43, _⟩ => ⟨S1024x1000, .f32⟩
  | .local _ .vmem, ⟨44, _⟩ => ⟨S1024x1000, .f32⟩
  | .local _ .vmem, ⟨45, _⟩ => ⟨S1024x1000, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg7_1 : Ref sig .tc := ⟨.vmem, 44, rfl⟩
abbrev cc2_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem7_1 : DmaSem sig := 42

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_14 : BitVec 32 := 0#32
  let v27 : BitVec 1 := Scalar.cmpi .ne v26 c0_i32_14
  v27

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 1, 8], ![false, false, false]⟩

def k2_cond2 (i : grid2.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_14 : BitVec 32 := 0#32
  let v27 : BitVec 1 := Scalar.cmpi .ne v26 c0_i32_14
  v27

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S1x1000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 1 → Memref sig .tc .vmem S1x1000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 1 → Memref sig .tc .vmem S1x1000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, true, false]

abbrev stage2_6 : Fin 1 → Memref sig .tc .vmem S1x1000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, true, false]

abbrev stage2_7 : Fin 2 → Memref sig .tc .vmem S1024x1000 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024x512_S1024x512 : S1024x512.ShapeCasts S1024x512
  shapeCasts_S1000_S1x1000 : S1000.ShapeCasts S1x1000
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1000x512_S1000x512_0_0 : ∀ a, (![0, 0] : Fin 2 → Nat) a + S1000x512.size a ≤ S1000x512.size a
  h_S1000x512 : 0 < S1000x512.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  dot_S1024x512_S1024x512_S1024x1024_1_1_0_0_n_n_wf : DotDims.WF S1024x512 S1024x512 S1024x1024 [1] [1] [0] [0] [] []
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .bf16 = 32 ∨ (Rect.block (s := S8192x4096) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x4096.size a
  hwx1_6 : ∀ i : grid1.Coords, EltTy.bits .f32 = 32 ∨ (Rect.block (s := S1x4096) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x4096.size a
  hwx1_7 : ∀ i : grid1.Coords, EltTy.bits .bf16 = 32 ∨ (Rect.block (s := S8192x4096) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S1000x4096.size a
  hwx2_1 : ∀ i : grid2.Coords, EltTy.bits .f32 = 32 ∨ (Rect.block (s := S1000x4096) S1000x512.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1000.size a ≤ S1x1000.size a
  hwx2_3 : ∀ i : grid2.Coords, EltTy.bits .f32 = 32 ∨ (Rect.block (s := S1x1000) S1x1000.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x1000.size a ≤ S1x1000.size a
  hwx2_4 : ∀ i : grid2.Coords, EltTy.bits .f32 = 32 ∨ (Rect.block (s := S1x1000) S1x1000.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1x1000.size a ≤ S1x1000.size a
  hwx2_5 : ∀ i : grid2.Coords, EltTy.bits .f32 = 32 ∨ (Rect.block (s := S1x1000) S1x1000.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1x1000.size a ≤ S1x1000.size a
  hwx2_6 : ∀ i : grid2.Coords, EltTy.bits .f32 = 32 ∨ (Rect.block (s := S1x1000) S1x1000.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1000.size a ≤ S8192x1000.size a
  hwx2_7 : ∀ i : grid2.Coords, EltTy.bits .f32 = 32 ∨ (Rect.block (s := S8192x1000) S1024x1000.size (cc2_transform_7 i) (hinb2_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v11) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1000.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x1000.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x1000.size cc2_transform_4 reads2_4 false false 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x1000.size cc2_transform_5 reads2_5 false false 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x1000.size cc2_transform_6 reads2_6 false false 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S1024x1000.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩
abbrev S1x4096 : Shape := ⟨2, ![1, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 155
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S1000x4096, .f32⟩
  | 14 => ⟨S1000, .f32⟩
  | 15 => ⟨S1000, .f32⟩
  | 16 => ⟨S1000, .f32⟩
  | 17 => ⟨S1000, .f32⟩
  | 18 => ⟨S1000, .f32⟩
  | 19 => ⟨S_, .f32⟩
  | 20 => ⟨S8192x4096, .f32⟩
  | 21 => ⟨S8192x4096, .f32⟩
  | 22 => ⟨S8192x4096, .f32⟩
  | 23 => ⟨S_, .f32⟩
  | 24 => ⟨S8192x4096, .f32⟩
  | 25 => ⟨S8192x4096, .f32⟩
  | 26 => ⟨S_, .f32⟩
  | 27 => ⟨S8192x4096, .f32⟩
  | 28 => ⟨S8192x4096, .i1⟩
  | 29 => ⟨S_, .f32⟩
  | 30 => ⟨S_, .f32⟩
  | 31 => ⟨S8192x4096, .f32⟩
  | 32 => ⟨S8192x4096, .f32⟩
  | 33 => ⟨S8192x4096, .f32⟩
  | 34 => ⟨S8192x4096, .f32⟩
  | 35 => ⟨S_, .f32⟩
  | 36 => ⟨S4096x4096, .f32⟩
  | 37 => ⟨S4096x4096, .i1⟩
  | 38 => ⟨S_, .f32⟩
  | 39 => ⟨S_, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S8192x4096, .f32⟩
  | 46 => ⟨S1x4096, .f32⟩
  | 47 => ⟨S8192x4096, .f32⟩
  | 48 => ⟨S8192x4096, .f32⟩
  | 49 => ⟨S1x4096, .f32⟩
  | 50 => ⟨S8192x4096, .f32⟩
  | 51 => ⟨S8192x4096, .f32⟩
  | 52 => ⟨S_, .f32⟩
  | 53 => ⟨S4096, .f32⟩
  | 54 => ⟨S4096, .f32⟩
  | 55 => ⟨S4096, .f32⟩
  | 56 => ⟨S4096, .f32⟩
  | 57 => ⟨S1x4096, .f32⟩
  | 58 => ⟨S8192x4096, .f32⟩
  | 59 => ⟨S8192x4096, .f32⟩
  | 60 => ⟨S1x4096, .f32⟩
  | 61 => ⟨S8192x4096, .f32⟩
  | 62 => ⟨S8192x4096, .f32⟩
  | 63 => ⟨S_, .f32⟩
  | 64 => ⟨S8192x4096, .f32⟩
  | 65 => ⟨S8192x4096, .i1⟩
  | 66 => ⟨S_, .f32⟩
  | 67 => ⟨S_, .f32⟩
  | 68 => ⟨S8192x4096, .f32⟩
  | 69 => ⟨S8192x4096, .f32⟩
  | 70 => ⟨S8192x4096, .f32⟩
  | 71 => ⟨S8192x4096, .f32⟩
  | 72 => ⟨S_, .f32⟩
  | 73 => ⟨S8192x4096, .f32⟩
  | 74 => ⟨S8192x4096, .i1⟩
  | 75 => ⟨S_, .f32⟩
  | 76 => ⟨S_, .f32⟩
  | 77 => ⟨S8192x4096, .f32⟩
  | 78 => ⟨S8192x4096, .f32⟩
  | 79 => ⟨S8192x4096, .f32⟩
  | 80 => ⟨S8192x4096, .f32⟩
  | 81 => ⟨S_, .f32⟩
  | 82 => ⟨S4096x4096, .f32⟩
  | 83 => ⟨S4096x4096, .i1⟩
  | 84 => ⟨S_, .f32⟩
  | 85 => ⟨S_, .f32⟩
  | 86 => ⟨S4096x4096, .f32⟩
  | 87 => ⟨S4096x4096, .f32⟩
  | 88 => ⟨S4096x4096, .f32⟩
  | 89 => ⟨S4096x4096, .f32⟩
  | 90 => ⟨S4096x4096, .f32⟩
  | 91 => ⟨S8192x4096, .f32⟩
  | 92 => ⟨S1x4096, .f32⟩
  | 93 => ⟨S8192x4096, .f32⟩
  | 94 => ⟨S8192x4096, .f32⟩
  | 95 => ⟨S1x4096, .f32⟩
  | 96 => ⟨S8192x4096, .f32⟩
  | 97 => ⟨S8192x4096, .f32⟩
  | 98 => ⟨S_, .f32⟩
  | 99 => ⟨S4096, .f32⟩
  | 100 => ⟨S4096, .f32⟩
  | 101 => ⟨S4096, .f32⟩
  | 102 => ⟨S4096, .f32⟩
  | 103 => ⟨S1x4096, .f32⟩
  | 104 => ⟨S8192x4096, .f32⟩
  | 105 => ⟨S8192x4096, .f32⟩
  | 106 => ⟨S1x4096, .f32⟩
  | 107 => ⟨S8192x4096, .f32⟩
  | 108 => ⟨S8192x4096, .f32⟩
  | 109 => ⟨S_, .f32⟩
  | 110 => ⟨S8192x4096, .f32⟩
  | 111 => ⟨S8192x4096, .i1⟩
  | 112 => ⟨S_, .f32⟩
  | 113 => ⟨S_, .f32⟩
  | 114 => ⟨S8192x4096, .f32⟩
  | 115 => ⟨S8192x4096, .f32⟩
  | 116 => ⟨S8192x4096, .f32⟩
  | 117 => ⟨S8192x4096, .f32⟩
  | 118 => ⟨S_, .f32⟩
  | 119 => ⟨S8192x4096, .f32⟩
  | 120 => ⟨S8192x4096, .i1⟩
  | 121 => ⟨S_, .f32⟩
  | 122 => ⟨S_, .f32⟩
  | 123 => ⟨S8192x4096, .f32⟩
  | 124 => ⟨S8192x4096, .f32⟩
  | 125 => ⟨S8192x4096, .f32⟩
  | 126 => ⟨S8192x4096, .f32⟩
  | 127 => ⟨S_, .f32⟩
  | _ => ⟨S8192x4096, .f32⟩

abbrev hbmTy0_1 (i : Nat) : BufTy := match i % 128 with
  | 0 => ⟨S1000x4096, .f32⟩
  | 1 => ⟨S1000x4096, .i1⟩
  | 2 => ⟨S_, .f32⟩
  | 3 => ⟨S_, .f32⟩
  | 4 => ⟨S1000x4096, .f32⟩
  | 5 => ⟨S1000x4096, .f32⟩
  | 6 => ⟨S1000x4096, .f32⟩
  | 7 => ⟨S1000x4096, .f32⟩
  | 8 => ⟨S4096x1000, .f32⟩
  | 9 => ⟨S8192x1000, .f32⟩
  | 10 => ⟨S1x1000, .f32⟩
  | 11 => ⟨S8192x1000, .f32⟩
  | 12 => ⟨S8192x1000, .f32⟩
  | 13 => ⟨S1x1000, .f32⟩
  | 14 => ⟨S8192x1000, .f32⟩
  | 15 => ⟨S8192x1000, .f32⟩
  | 16 => ⟨S_, .f32⟩
  | 17 => ⟨S1000, .f32⟩
  | 18 => ⟨S1000, .f32⟩
  | 19 => ⟨S1000, .f32⟩
  | 20 => ⟨S1000, .f32⟩
  | 21 => ⟨S1x1000, .f32⟩
  | 22 => ⟨S8192x1000, .f32⟩
  | 23 => ⟨S8192x1000, .f32⟩
  | 24 => ⟨S1x1000, .f32⟩
  | 25 => ⟨S8192x1000, .f32⟩
  | 26 => ⟨S8192x1000, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_cst_4 : Ref sig .tc := ⟨.hbm, 35, rfl⟩
abbrev main_v9 : Ref sig .tc := ⟨.hbm, 36, rfl⟩
abbrev main_v10 : Ref sig .tc := ⟨.hbm, 37, rfl⟩
abbrev main_cst_5 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_7 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v33 : Ref sig .tc := ⟨.hbm, 70, rfl⟩
abbrev main_v34 : Ref sig .tc := ⟨.hbm, 71, rfl⟩
abbrev main_cst_11 : Ref sig .tc := ⟨.hbm, 72, rfl⟩
abbrev main_v35 : Ref sig .tc := ⟨.hbm, 73, rfl⟩
abbrev main_v36 : Ref sig .tc := ⟨.hbm, 74, rfl⟩
abbrev main_cst_12 : Ref sig .tc := ⟨.hbm, 75, rfl⟩
abbrev main_cst_13 : Ref sig .tc := ⟨.hbm, 76, rfl⟩
abbrev main_call4_v0 : Ref sig .tc := ⟨.hbm, 77, rfl⟩
abbrev main_call4_v1 : Ref sig .tc := ⟨.hbm, 78, rfl⟩
abbrev main_v37 : Ref sig .tc := ⟨.hbm, 79, rfl⟩
abbrev main_v38 : Ref sig .tc := ⟨.hbm, 80, rfl⟩
abbrev main_cst_14 : Ref sig .tc := ⟨.hbm, 81, rfl⟩
abbrev main_v39 : Ref sig .tc := ⟨.hbm, 82, rfl⟩
abbrev main_v40 : Ref sig .tc := ⟨.hbm, 83, rfl⟩
abbrev main_cst_15 : Ref sig .tc := ⟨.hbm, 84, rfl⟩
abbrev main_cst_16 : Ref sig .tc := ⟨.hbm, 85, rfl⟩
abbrev main_call5_v0 : Ref sig .tc := ⟨.hbm, 86, rfl⟩
abbrev main_call5_v1 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_17 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_18 : Ref sig .tc := ⟨.hbm, 109, rfl⟩
abbrev main_v61 : Ref sig .tc := ⟨.hbm, 110, rfl⟩
abbrev main_v62 : Ref sig .tc := ⟨.hbm, 111, rfl⟩
abbrev main_cst_19 : Ref sig .tc := ⟨.hbm, 112, rfl⟩
abbrev main_cst_20 : Ref sig .tc := ⟨.hbm, 113, rfl⟩
abbrev main_call6_v0 : Ref sig .tc := ⟨.hbm, 114, rfl⟩
abbrev main_call6_v1 : Ref sig .tc := ⟨.hbm, 115, rfl⟩
abbrev main_v63 : Ref sig .tc := ⟨.hbm, 116, rfl⟩
abbrev main_v64 : Ref sig .tc := ⟨.hbm, 117, rfl⟩
abbrev main_cst_21 : Ref sig .tc := ⟨.hbm, 118, rfl⟩
abbrev main_v65 : Ref sig .tc := ⟨.hbm, 119, rfl⟩
abbrev main_v66 : Ref sig .tc := ⟨.hbm, 120, rfl⟩
abbrev main_cst_22 : Ref sig .tc := ⟨.hbm, 121, rfl⟩
abbrev main_cst_23 : Ref sig .tc := ⟨.hbm, 122, rfl⟩
abbrev main_call7_v0 : Ref sig .tc := ⟨.hbm, 123, rfl⟩
abbrev main_call7_v1 : Ref sig .tc := ⟨.hbm, 124, rfl⟩
abbrev main_v67 : Ref sig .tc := ⟨.hbm, 125, rfl⟩
abbrev main_v68 : Ref sig .tc := ⟨.hbm, 126, rfl⟩
abbrev main_cst_24 : Ref sig .tc := ⟨.hbm, 127, rfl⟩
abbrev main_v69 : Ref sig .tc := ⟨.hbm, 128, rfl⟩
abbrev main_v70 : Ref sig .tc := ⟨.hbm, 129, rfl⟩
abbrev main_cst_25 : Ref sig .tc := ⟨.hbm, 130, rfl⟩
abbrev main_cst_26 : Ref sig .tc := ⟨.hbm, 131, rfl⟩
abbrev main_call8_v0 : Ref sig .tc := ⟨.hbm, 132, rfl⟩
abbrev main_call8_v1 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_27 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S1000x4096 : S_.BroadcastsInDim S1000x4096 (![] : Fin 0 → Fin S1000x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S1000 : S_.BroadcastsInDim S1000 (![] : Fin 0 → Fin S1000.rank)
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.K.Conds0.lean ====
import proofs.«141190_j33311766347902_1_alg».proof.Proof.Gen.Kernel.Launch
import proofs.«141190_j33311766347902_1_alg».proof.Proof.Gen.Kernel.Skeleton
import proofs.«141190_j33311766347902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 8 = 0 :=
  (by decide +kernel : ∀ t : Fin grid0.N, first0 (grid0.coords t) ↔ t.val % 8 = 0)

abbrev last0 (i : grid0.Coords) : Prop := k0_cond2 i = 1#1
theorem hlast0 : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel

theorem idle0_7 : ∀ t : Fin cfg0.N, ¬last0 (grid0.coords t) → cfg0.idle 7 (grid0.coords t) = true := by decide +kernel
theorem noFlush0_7 : ∀ t : Fin cfg0.N, ¬last0 (grid0.coords t) → (cfg0.win 7).flush t = false := by decide +kernel
theorem live0_7 : ∀ t : Fin cfg0.N, last0 (grid0.coords t) → cfg0.idle 7 (grid0.coords t) = false := by decide +kernel

abbrev acc0 : Memref sig .tc .vmem S1024x1024 .f32 := Memref.whole cc0_scratch0
abbrev accV0 : View sig .tc .vmem S1024x1024 .f32 := acc0.view
abbrev outV0 : View sig .tc .vmem S1024x1024 .bf16 := (Memref.whole cc0_stg7_0 : Memref sig .tc .vmem S1024x1024 .bf16).view

theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.Kernel.Gen

end
-- ==== Proof.K.Owns.lean ====
import proofs.«141190_j33311766347902_1_alg».proof.Proof.Gen.Kernel.Launch
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole memref owned at `x` is its buffer's points-to at the contents that read back as `x`. -/
theorem owns_unread {S : Shape} {e : EltTy} (c : Dev nD) (a : Memref sig .tc .vmem S e) (h : a.IsWhole) (x : Vec F S e) :
    (owns (c : Thread nD τ) a fullShare x : sProp 𝕄) = (a.view.loc (c : Thread nD τ) ↦[a.view.set]{fullShare} h.unread x) := by
  have h₁ : (owns (c : Thread nD τ) a fullShare x : sProp 𝕄) ⊢ (a.view.loc (c : Thread nD τ) ↦[a.view.set]{fullShare} h.unread x) := by
    unfold owns; iintro ⟨%f, %hf, H⟩; obtain rfl := h.eq_unread hf; iexact H
  have h₂ : (a.view.loc (c : Thread nD τ) ↦[a.view.set]{fullShare} h.unread x : sProp 𝕄) ⊢ owns (c : Thread nD τ) a fullShare x := by
    unfold owns; iintro H; iexists _; isplitr
    · ipureintro; exact h.read_unread _
    · iexact H
  exact BI.equiv_iff.mp ⟨h₁, h₂⟩

end Cert.Kernel.Gen

end
-- ==== Proof.K.Run0.lean ====
import proofs.«141190_j33311766347902_1_alg».proof.Proof.K.Conds0
import proofs.«141190_j33311766347902_1_alg».proof.Proof.K.Owns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
  (x0 : Vec F S1024x512 .f32) (x1 : Vec F S1024x512 .f32) (x2 : Vec F S1x1024 .f32) (x3 : Vec F S1x1024 .f32) (x4 : Vec F S1x1024 .f32) (x5 : Vec F S1x1024 .f32) (x6 : Vec F S1x1024 .f32)

set_option maxHeartbeats 4000000 in
/-- A first step of the contraction: the accumulator, whatever it held, is zeroed and takes the step's product. -/
noncomputable def kernelRun0_A (hc0 : first0 i) (hc1 : ¬last0 i) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun0_B (hc0 : ¬first0 i) (hc1 : ¬last0 i) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun0_C (hc0 : ¬first0 i) (hc1 : last0 i) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.Kernel.Gen

end
-- ==== Proof.K.Data0.lean ====
import proofs.«141190_j33311766347902_1_alg».proof.Proof.K.Run0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args0 (F : FTy → Type) where
  i : grid0.Coords
  a0 : Memref sig .tc .vmem S1024x512 .f32
  h0 : a0.IsWhole
  a1 : Memref sig .tc .vmem S1024x512 .f32
  h1 : a1.IsWhole
  a2 : Memref sig .tc .vmem S1x1024 .f32
  h2 : a2.IsWhole
  a3 : Memref sig .tc .vmem S1x1024 .f32
  h3 : a3.IsWhole
  a4 : Memref sig .tc .vmem S1x1024 .f32
  h4 : a4.IsWhole
  a5 : Memref sig .tc .vmem S1x1024 .f32
  h5 : a5.IsWhole
  a6 : Memref sig .tc .vmem S1x1024 .f32
  h6 : a6.IsWhole
  a7 : Memref sig .tc .vmem S1024x1024 .bf16
  h7 : a7.IsWhole
  acc : Memref sig .tc .vmem S1024x1024 .f32
  hacc : acc.IsWhole
  x0 : Vec F S1024x512 .f32
  x1 : Vec F S1024x512 .f32
  x2 : Vec F S1x1024 .f32
  x3 : Vec F S1x1024 .f32
  x4 : Vec F S1x1024 .f32
  x5 : Vec F S1x1024 .f32
  x6 : Vec F S1x1024 .f32

namespace Args0
variable (a : Args0 F) (c : Dev nD)

/-- The run at a first, a middle and a last step of the contraction (the last two over the accumulator's contents). -/
abbrev runA (hf : first0 a.i) (hl : ¬last0 a.i) :=
  kernelRun0_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first0 a.i) (hl : ¬last0 a.i) (xs : Vec F S1024x1024 .f32) :=
  kernelRun0_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first0 a.i) (hl : last0 a.i) (xs : Vec F S1024x1024 .f32) :=
  kernelRun0_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args0

section Pieces
variable (a : Args0 F) (c : Dev nD)

theorem scover0_A (hf : first0 a.i) (hl : ¬last0 a.i) (y : S1024x1024.Idx) : ∃ pc ∈ (a.runA c hf hl).1, y ∈ pc.1.set :=
  View.cover_of_tiledL _ S1024x1024.size (by sl_kernel_rfl) y
/-- The accumulator after a run: the pieces it stored, read back. -/
def sout0_A (hf : first0 a.i) (hl : ¬last0 a.i) : Vec F S1024x1024 .f32 :=
  accV0.read (Elt F) (accV0.writes (Elt F) accV0.junk (a.runA c hf hl).1)
theorem scover0_B (hf : ¬first0 a.i) (hl : ¬last0 a.i) (xs : Vec F S1024x1024 .f32) (y : S1024x1024.Idx) : ∃ pc ∈ (a.runB c hf hl xs).1, y ∈ pc.1.set :=
  View.cover_of_tiledL _ S1024x1024.size (by sl_kernel_rfl) y
def sout0_B (hf : ¬first0 a.i) (hl : ¬last0 a.i) (xs : Vec F S1024x1024 .f32) : Vec F S1024x1024 .f32 :=
  accV0.read (Elt F) (accV0.writes (Elt F) accV0.junk (a.runB c hf hl xs).1)
theorem scover0_C (hf : ¬first0 a.i) (hl : last0 a.i) (xs : Vec F S1024x1024 .f32) (y : S1024x1024.Idx) : ∃ pc ∈ (a.runC c hf hl xs).2.1, y ∈ pc.1.set :=
  View.cover_of_tiledL _ S1024x1024.size (by sl_kernel_rfl) y
def sout0_C (hf : ¬first0 a.i) (hl : last0 a.i) (xs : Vec F S1024x1024 .f32) : Vec F S1024x1024 .f32 :=
  accV0.read (Elt F) (accV0.writes (Elt F) accV0.junk (a.runC c hf hl xs).2.1)
theorem cover0_C (hf : ¬first0 a.i) (hl : last0 a.i) (xs : Vec F S1024x1024 .f32) (y : S1024x1024.Idx) : ∃ pc ∈ (a.runC c hf hl xs).1, y ∈ pc.1.set :=
  View.cover_of_tiledL _ S1024x1024.size (by sl_kernel_rfl) y
/-- The output tile a last step stores. -/
def out0_C (hf : ¬first0 a.i) (hl : last0 a.i) (xs : Vec F S1024x1024 .f32) : Vec F S1024x1024 .bf16 :=
  outV0.read (Elt F) (outV0.writes (Elt F) outV0.junk (a.runC c hf hl xs).1)
/-- Off the last step the body stores nothing into the output's buffer: a placeholder nothing consults. -/
def out0_idle : Vec F S1024x1024 .bf16 := outV0.read (Elt F) outV0.junk

end Pieces

theorem not_last0 {t : Fin cfg0.N} (hf : first0 (grid0.coords t)) : ¬last0 (grid0.coords t) := fun hl => by
  have := (hfirst0 t).mp hf; have := (hlast0 t).mp hl; omega
theorem pos_of_not_first0 {t : Fin cfg0.N} (hf : ¬first0 (grid0.coords t)) : t.val ≠ 0 := fun e =>
  hf ((hfirst0 t).mpr (by rw [e]))

section Layer
variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's operands at point `t`: each window's buffer, the accumulator, and the input blocks read off the arrays. -/
abbrev args0 (c : Dev nD) (t : Fin cfg0.N) : Args0 F :=
  ⟨grid0.coords t, win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7), acc0, Memref.isWhole_whole _,
    iblk0 V c 0 t, iblk0 V c 1 t, iblk0 V c 2 t, iblk0 V c 3 t, iblk0 V c 4 t, iblk0 V c 5 t, iblk0 V c 6 t⟩

/-- The output's buffer and the accumulator after point `n`: reset at a first step, accumulated at the others, the tile stored at a last. -/
def outsAt0 (c : Dev nD) : (n : ℕ) → n < cfg0.N → Vec F S1024x1024 .bf16 × Vec F S1024x1024 .f32
  | 0, hn => (out0_idle, sout0_A (args0 V c ⟨0, hn⟩) c ((hfirst0 ⟨0, hn⟩).mpr (Nat.zero_mod _)) (not_last0 ((hfirst0 ⟨0, hn⟩).mpr (Nat.zero_mod _))))
  | n + 1, hn =>
    if hf : first0 (grid0.coords ⟨n + 1, hn⟩) then (out0_idle, sout0_A (args0 V c ⟨n + 1, hn⟩) c hf (not_last0 hf))
    else if hl : last0 (grid0.coords ⟨n + 1, hn⟩) then
      (out0_C (args0 V c ⟨n + 1, hn⟩) c hf hl (outsAt0 c n (Nat.lt_of_succ_lt hn)).2,
        sout0_C (args0 V c ⟨n + 1, hn⟩) c hf hl (outsAt0 c n (Nat.lt_of_succ_lt hn)).2)
    else (out0_idle, sout0_B (args0 V c ⟨n + 1, hn⟩) c hf hl (outsAt0 c n (Nat.lt_of_succ_lt hn)).2)

/-- What the point before `t` left in the accumulator. -/
abbrev prev0 (c : Dev nD) (t : Fin cfg0.N) : Vec F S1024x1024 .f32 :=
  (outsAt0 V c (t.val - 1) (Nat.lt_of_le_of_lt (Nat.sub_le _ _) t.isLt)).2

theorem outsAt0_A (c : Dev nD) (t : Fin cfg0.N) (hf : first0 (grid0.coords t)) :
    outsAt0 V c t.val t.isLt = (out0_idle, sout0_A (args0 V c t) c hf (not_last0 hf)) := by
  obtain ⟨_ | n, hn⟩ := t
  · rfl
  · exact dif_pos hf
theorem outsAt0_B (c : Dev nD) (t : Fin cfg0.N) (hf : ¬first0 (grid0.coords t)) (hl : ¬last0 (grid0.coords t)) :
    outsAt0 V c t.val t.isLt = (out0_idle, sout0_B (args0 V c t) c hf hl (prev0 V c t)) := by
  obtain ⟨_ | n, hn⟩ := t
  · exact absurd rfl (pos_of_not_first0 hf)
  · exact (dif_neg hf).trans (dif_neg hl)
theorem outsAt0_C (c : Dev nD) (t : Fin cfg0.N) (hf : ¬first0 (grid0.coords t)) (hl : last0 (grid0.coords t)) :
    outsAt0 V c t.val t.isLt = (out0_C (args0 V c t) c hf hl (prev0 V c t), sout0_C (args0 V c t) c hf hl (prev0 V c t)) := by
  obtain ⟨_ | n, hn⟩ := t
  · exact absurd rfl (pos_of_not_first0 hf)
  · exact (dif_neg hf).trans (dif_pos hl)

/-- The region's invariant between points, with what is said of the accumulator singled out. -/
abbrev accInv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

/-- Before the first point the accumulator holds anything; afterwards what the point before left. -/
def PhiS0 (c : Dev nD) : (n : ℕ) → n ≤ cfg0.N → sProp 𝕄
  | 0, _ => Pipeline.ΦA spec0 c
  | n + 1, hn => accInv0 c (owns (c : Thread nD τ) acc0 fullShare ((outsAt0 V c n hn).2))

theorem PhiS0_pos (c : Dev nD) (n : ℕ) (h : n ≤ cfg0.N) (hz : n ≠ 0) :
    PhiS0 V c n h = accInv0 c (owns (c : Thread nD τ) acc0 fullShare ((outsAt0 V c (n - 1) (by omega)).2)) := by
  cases n with
  | zero => exact absurd rfl hz
  | succ n => rfl
/-- At every point the invariant owns the accumulator at some contents. -/
theorem PhiS0_forget (c : Dev nD) (n : ℕ) (h : n ≤ cfg0.N) : PhiS0 V c n h ⊢ accInv0 c iprop(∃ d, owns (c : Thread nD τ) acc0 fullShare d) := by
  cases n with
  | zero => rw [show PhiS0 V c 0 h = Pipeline.ΦA spec0 c from rfl, PhiA0_eq]
  | succ n => exact sep_mono_left (sep_mono_left (exists_intro (Φ := fun d => owns (c : Thread nD τ) acc0 fullShare d) _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem after0_7 (c : Dev nD) (t : Fin cfg0.N) : (dat0 V c).after 7 t = (outsAt0 V c t.val t.isLt).1 := rfl

/-- An input window's buffer holds its block of the array at every point. -/
theorem before0_0 (c : Dev nD) (t : Fin cfg0.N) (d) : (dat0 V c).before 0 t d = (args0 V c t).x0 :=
  ((dat0 V c).before_in_eq_fetched 0 rfl (fun _ => rfl) (fun _ _ _ => rfl) (fun _ => rfl) t d).trans rfl
theorem before0_1 (c : Dev nD) (t : Fin cfg0.N) (d) : (dat0 V c).before 1 t d = (args0 V c t).x1 :=
  ((dat0 V c).before_in_eq_fetched 1 rfl (fun _ => rfl) (fun _ _ _ => rfl) (fun _ => rfl) t d).trans rfl
theorem before0_2 (c : Dev nD) (t : Fin cfg0.N) (d) : (dat0 V c).before 2 t d = (args0 V c t).x2 :=
  ((dat0 V c).before_in_eq_fetched 2 rfl (fun _ => rfl) (fun _ _ _ => rfl) (fun _ => rfl) t d).trans rfl
theorem before0_3 (c : Dev nD) (t : Fin cfg0.N) (d) : (dat0 V c).before 3 t d = (args0 V c t).x3 :=
  ((dat0 V c).before_in_eq_fetched 3 rfl (fun _ => rfl) (fun _ _ _ => rfl) (fun _ => rfl) t d).trans rfl
theorem before0_4 (c : Dev nD) (t : Fin cfg0.N) (d) : (dat0 V c).before 4 t d = (args0 V c t).x4 :=
  ((dat0 V c).before_in_eq_fetched 4 rfl (fun _ => rfl) (fun _ _ _ => rfl) (fun _ => rfl) t d).trans rfl
theorem before0_5 (c : Dev nD) (t : Fin cfg0.N) (d) : (dat0 V c).before 5 t d = (args0 V c t).x5 :=
  ((dat0 V c).before_in_eq_fetched 5 rfl (fun _ => rfl) (fun _ _ _ => rfl) (fun _ => rfl) t d).trans rfl
theorem before0_6 (c : Dev nD) (t : Fin cfg0.N) (d) : (dat0 V c).before 6 t d = (args0 V c t).x6 :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (args0 V c t).a0 fullShare ((dat0 V c).before 0 t d))
    ∗ (∃ d, owns (c : Thread nD τ) (args0 V c t).a1 fullShare ((dat0 V c).before 1 t d))
    ∗ (∃ d, owns (c : Thread nD τ) (args0 V c t).a2 fullShare ((dat0 V c).before 2 t d))
    ∗ (∃ d, owns (c : Thread nD τ) (args0 V c t).a3 fullShare ((dat0 V c).before 3 t d))
    ∗ (∃ d, owns (c : Thread nD τ) (args0 V c t).a4 fullShare ((dat0 V c).before 4 t d))
    ∗ (∃ d, owns (c : Thread nD τ) (args0 V c t).a5 fullShare ((dat0 V c).before 5 t d))
    ∗ (∃ d, owns (c : Thread nD τ) (args0 V c t).a6 fullShare ((dat0 V c).before 6 t d))
    ∗ (∃ d, owns (c : Thread nD τ) (args0 V c t).a7 fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = accInv0 c (owns (c : Thread nD τ) acc0 fullShare (outsAt0 V c t.val t.isLt).2) from rfl,
    show (dat0 V c).Φ t.castSucc = PhiS0 V c t.val (Nat.le_of_lt t.isLt) from rfl]
  rw [show (dat0 V c).leavesExact 0 t = owns (c : Thread nD τ) (args0 V c t).a0 fullShare (args0 V c t).x0 from by
    unfold Dat.leavesExact; rw [live0_0 t]; rfl]
  rw [show (dat0 V c).leavesExact 1 t = owns (c : Thread nD τ) (args0 V c t).a1 fullShare (args0 V c t).x1 from by
    unfold Dat.leavesExact; rw [live0_1 t]; rfl]
  rw [show (dat0 V c).leavesExact 2 t = owns (c : Thread nD τ) (args0 V c t).a2 fullShare (args0 V c t).x2 from by
    unfold Dat.leavesExact; rw [live0_2 t]; rfl]
  rw [show (dat0 V c).leavesExact 3 t = owns (c : Thread nD τ) (args0 V c t).a3 fullShare (args0 V c t).x3 from by
    unfold Dat.leavesExact; rw [live0_3 t]; rfl]
  rw [show (dat0 V c).leavesExact 4 t = owns (c : Thread nD τ) (args0 V c t).a4 fullShare (args0 V c t).x4 from by
    unfold Dat.leavesExact; rw [live0_4 t]; rfl]
  rw [show (dat0 V c).leavesExact 5 t = owns (c : Thread nD τ) (args0 V c t).a5 fullShare (args0 V c t).x5 from by
    unfold Dat.leavesExact; rw [live0_5 t]; rfl]
  rw [show (dat0 V c).leavesExact 6 t = owns (c : Thread nD τ) (args0 V c t).a6 fullShare (args0 V c t).x6 from by
    unfold Dat.leavesExact; rw [live0_6 t]; rfl]
  by_cases hf : first0 (grid0.coords t)
  · have hl := not_last0 hf
    rw [Dat.leavesExact_idle (dat0 V c) 7 t (idle0_7 t hl) (noFlush0_7 t hl), outsAt0_A V c t hf]
    unfold sout0_A; dsimp only
    refine (sep_mono_left (PhiS0_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args0 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A (args0 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS0_pos V c _ _ (pos_of_not_first0 hf)]
    by_cases hl : last0 (grid0.coords t)
    · rw [show (dat0 V c).leavesExact 7 t = owns (c : Thread nD τ) (args0 V c t).a7 fullShare ((dat0 V c).after 7 t) from by
        unfold Dat.leavesExact; rw [live0_7 t hl], after0_7, outsAt0_C V c t hf hl]
      unfold out0_C sout0_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args0 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C (args0 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C (args0 V c t) c hf hl _)
    · rw [Dat.leavesExact_idle (dat0 V c) 7 t (idle0_7 t hl) (noFlush0_7 t hl), outsAt0_B V c t hf hl]
      unfold sout0_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args0 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B (args0 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

/-- After the last point the accumulator's contents are forgotten. -/
theorem hout0 (c : Dev nD) : (dat0 V c).Φ (Fin.last cfg0.N) ⊢ Pipeline.ΦA spec0 c := by
  rw [PhiA0_eq]; exact PhiS0_forget V c cfg0.N (Nat.le_refl _)

end Layer

end Cert.Kernel.Gen

end
-- ==== Proof.K.Conds1.lean ====
import proofs.«141190_j33311766347902_1_alg».proof.Proof.Gen.Kernel.Launch
import proofs.«141190_j33311766347902_1_alg».proof.Proof.Gen.Kernel.Skeleton
import proofs.«141190_j33311766347902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first1 (i : grid1.Coords) : Prop := (Scalar.cmpi .ne (Scalar.extui (Scalar.cmpi .eq (BitVec.ofNat 32 (i 2).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)

abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel

theorem idle1_7 : ∀ t : Fin cfg1.N, ¬last1 (grid1.coords t) → cfg1.idle 7 (grid1.coords t) = true := by decide +kernel
theorem noFlush1_7 : ∀ t : Fin cfg1.N, ¬last1 (grid1.coords t) → (cfg1.win 7).flush t = false := by decide +kernel
theorem live1_7 : ∀ t : Fin cfg1.N, last1 (grid1.coords t) → cfg1.idle 7 (grid1.coords t) = false := by decide +kernel

abbrev acc1 : Memref sig .tc .vmem S1024x1024 .f32 := Memref.whole cc1_scratch0
abbrev accV1 : View sig .tc .vmem S1024x1024 .f32 := acc1.view
abbrev outV1 : View sig .tc .vmem S1024x1024 .bf16 := (Memref.whole cc1_stg7_0 : Memref sig .tc .vmem S1024x1024 .bf16).view

theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.Kernel.Gen

end
-- ==== Proof.K.Run1.lean ====
import proofs.«141190_j33311766347902_1_alg».proof.Proof.K.Conds1
import proofs.«141190_j33311766347902_1_alg».proof.Proof.K.Owns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
  (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)

set_option maxHeartbeats 4000000 in
/-- A first step of the contraction: the accumulator, whatever it held, is zeroed and takes the step's product. -/
noncomputable def kernelRun1_A (hc0 : first1 i) (hc1 : ¬last1 i) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun1_B (hc0 : ¬first1 i) (hc1 : ¬last1 i) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun1_C (hc0 : ¬first1 i) (hc1 : last1 i) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.Kernel.Gen

end
-- ==== Proof.K.Data1.lean ====
import proofs.«141190_j33311766347902_1_alg».proof.Proof.K.Run1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args1 (F : FTy → Type) where
  i : grid1.Coords
  a0 : Memref sig .tc .vmem S1024x512 .bf16
  h0 : a0.IsWhole
  a1 : Memref sig .tc .vmem S1024x512 .f32
  h1 : a1.IsWhole
  a2 : Memref sig .tc .vmem S1x1024 .f32
  h2 : a2.IsWhole
  a3 : Memref sig .tc .vmem S1x1024 .f32
  h3 : a3.IsWhole
  a4 : Memref sig .tc .vmem S1x1024 .f32
  h4 : a4.IsWhole
  a5 : Memref sig .tc .vmem S1x1024 .f32
  h5 : a5.IsWhole
  a6 : Memref sig .tc .vmem S1x1024 .f32
  h6 : a6.IsWhole
  a7 : Memref sig .tc .vmem S1024x1024 .bf16
  h7 : a7.IsWhole
  acc : Memref sig .tc .vmem S1024x1024 .f32
  hacc : acc.IsWhole
  x0 : Vec F S1024x512 .bf16
  x1 : Vec F S1024x512 .f32
  x2 : Vec F S1x1024 .f32
  x3 : Vec F S1x1024 .f32
  x4 : Vec F S1x1024 .f32
  x5 : Vec F S1x1024 .f32
  x6 : Vec F S1x1024 .f32

namespace Args1
variable (a : Args1 F) (c : Dev nD)

/-- The run at a first, a middle and a last step of the contraction (the last two over the accumulator's contents). -/
abbrev runA (hf : first1 a.i) (hl : ¬last1 a.i) :=
  kernelRun1_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first1 a.i) (hl : ¬last1 a.i) (xs : Vec F S1024x1024 .f32) :=
  kernelRun1_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first1 a.i) (hl : last1 a.i) (xs : Vec F S1024x1024 .f32) :=
  kernelRun1_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args1

section Pieces
variable (a : Args1 F) (c : Dev nD)

theorem scover1_A (hf : first1 a.i) (hl : ¬last1 a.i) (y : S1024x1024.Idx) : ∃ pc ∈ (a.runA c hf hl).1, y ∈ pc.1.set :=
  View.cover_of_tiledL _ S1024x1024.size (by sl_kernel_rfl) y
/-- The accumulator after a run: the pieces it stored, read back. -/
def sout1_A (hf : first1 a.i) (hl : ¬last1 a.i) : Vec F S1024x1024 .f32 :=
  accV1.read (Elt F) (accV1.writes (Elt F) accV1.junk (a.runA c hf hl).1)
theorem scover1_B (hf : ¬first1 a.i) (hl : ¬last1 a.i) (xs : Vec F S1024x1024 .f32) (y : S1024x1024.Idx) : ∃ pc ∈ (a.runB c hf hl xs).1, y ∈ pc.1.set :=
  View.cover_of_tiledL _ S1024x1024.size (by sl_kernel_rfl) y
def sout1_B (hf : ¬first1 a.i) (hl : ¬last1 a.i) (xs : Vec F S1024x1024 .f32) : Vec F S1024x1024 .f32 :=
  accV1.read (Elt F) (accV1.writes (Elt F) accV1.junk (a.runB c hf hl xs).1)
theorem scover1_C (hf : ¬first1 a.i) (hl : last1 a.i) (xs : Vec F S1024x1024 .f32) (y : S1024x1024.Idx) : ∃ pc ∈ (a.runC c hf hl xs).2.1, y ∈ pc.1.set :=
  View.cover_of_tiledL _ S1024x1024.size (by sl_kernel_rfl) y
def sout1_C (hf : ¬first1 a.i) (hl : last1 a.i) (xs : Vec F S1024x1024 .f32) : Vec F S1024x1024 .f32 :=
  accV1.read (Elt F) (accV1.writes (Elt F) accV1.junk (a.runC c hf hl xs).2.1)
theorem cover1_C (hf : ¬first1 a.i) (hl : last1 a.i) (xs : Vec F S1024x1024 .f32) (y : S1024x1024.Idx) : ∃ pc ∈ (a.runC c hf hl xs).1, y ∈ pc.1.set :=
  View.cover_of_tiledL _ S1024x1024.size (by sl_kernel_rfl) y
/-- The output tile a last step stores. -/
def out1_C (hf : ¬first1 a.i) (hl : last1 a.i) (xs : Vec F S1024x1024 .f32) : Vec F S1024x1024 .bf16 :=
  outV1.read (Elt F) (outV1.writes (Elt F) outV1.junk (a.runC c hf hl xs).1)
/-- Off the last step the body stores nothing into the output's buffer: a placeholder nothing consults. -/
def out1_idle : Vec F S1024x1024 .bf16 := outV1.read (Elt F) outV1.junk

end Pieces

theorem not_last1 {t : Fin cfg1.N} (hf : first1 (grid1.coords t)) : ¬last1 (grid1.coords t) := fun hl => by
  have := (hfirst1 t).mp hf; have := (hlast1 t).mp hl; omega
theorem pos_of_not_first1 {t : Fin cfg1.N} (hf : ¬first1 (grid1.coords t)) : t.val ≠ 0 := fun e =>
  hf ((hfirst1 t).mpr (by rw [e]))

section Layer
variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's operands at point `t`: each window's buffer, the accumulator, and the input blocks read off the arrays. -/
abbrev args1 (c : Dev nD) (t : Fin cfg1.N) : Args1 F :=
  ⟨grid1.coords t, win1_0.stage (cfg1.slots t 0), hstage1_0 ((cfg1.slots t 0).cast nbuf1_0),
    win1_1.stage (cfg1.slots t 1), hstage1_1 ((cfg1.slots t 1).cast nbuf1_1),
    win1_2.stage (cfg1.slots t 2), hstage1_2 ((cfg1.slots t 2).cast nbuf1_2),
    win1_3.stage (cfg1.slots t 3), hstage1_3 ((cfg1.slots t 3).cast nbuf1_3),
    win1_4.stage (cfg1.slots t 4), hstage1_4 ((cfg1.slots t 4).cast nbuf1_4),
    win1_5.stage (cfg1.slots t 5), hstage1_5 ((cfg1.slots t 5).cast nbuf1_5),
    win1_6.stage (cfg1.slots t 6), hstage1_6 ((cfg1.slots t 6).cast nbuf1_6),
    win1_7.stage (cfg1.slots t 7), hstage1_7 ((cfg1.slots t 7).cast nbuf1_7), acc1, Memref.isWhole_whole _,
    iblk1 V c 0 t, iblk1 V c 1 t, iblk1 V c 2 t, iblk1 V c 3 t, iblk1 V c 4 t, iblk1 V c 5 t, iblk1 V c 6 t⟩

/-- The output's buffer and the accumulator after point `n`: reset at a first step, accumulated at the others, the tile stored at a last. -/
def outsAt1 (c : Dev nD) : (n : ℕ) → n < cfg1.N → Vec F S1024x1024 .bf16 × Vec F S1024x1024 .f32
  | 0, hn => (out1_idle, sout1_A (args1 V c ⟨0, hn⟩) c ((hfirst1 ⟨0, hn⟩).mpr (Nat.zero_mod _)) (not_last1 ((hfirst1 ⟨0, hn⟩).mpr (Nat.zero_mod _))))
  | n + 1, hn =>
    if hf : first1 (grid1.coords ⟨n + 1, hn⟩) then (out1_idle, sout1_A (args1 V c ⟨n + 1, hn⟩) c hf (not_last1 hf))
    else if hl : last1 (grid1.coords ⟨n + 1, hn⟩) then
      (out1_C (args1 V c ⟨n + 1, hn⟩) c hf hl (outsAt1 c n (Nat.lt_of_succ_lt hn)).2,
        sout1_C (args1 V c ⟨n + 1, hn⟩) c hf hl (outsAt1 c n (Nat.lt_of_succ_lt hn)).2)
    else (out1_idle, sout1_B (args1 V c ⟨n + 1, hn⟩) c hf hl (outsAt1 c n (Nat.lt_of_succ_lt hn)).2)

/-- What the point before `t` left in the accumulator. -/
abbrev prev1 (c : Dev nD) (t : Fin cfg1.N) : Vec F S1024x1024 .f32 :=
  (outsAt1 V c (t.val - 1) (Nat.lt_of_le_of_lt (Nat.sub_le _ _) t.isLt)).2

theorem outsAt1_A (c : Dev nD) (t : Fin cfg1.N) (hf : first1 (grid1.coords t)) :
    outsAt1 V c t.val t.isLt = (out1_idle, sout1_A (args1 V c t) c hf (not_last1 hf)) := by
  obtain ⟨_ | n, hn⟩ := t
  · rfl
  · exact dif_pos hf
theorem outsAt1_B (c : Dev nD) (t : Fin cfg1.N) (hf : ¬first1 (grid1.coords t)) (hl : ¬last1 (grid1.coords t)) :
    outsAt1 V c t.val t.isLt = (out1_idle, sout1_B (args1 V c t) c hf hl (prev1 V c t)) := by
  obtain ⟨_ | n, hn⟩ := t
  · exact absurd rfl (pos_of_not_first1 hf)
  · exact (dif_neg hf).trans (dif_neg hl)
theorem outsAt1_C (c : Dev nD) (t : Fin cfg1.N) (hf : ¬first1 (grid1.coords t)) (hl : last1 (grid1.coords t)) :
    outsAt1 V c t.val t.isLt = (out1_C (args1 V c t) c hf hl (prev1 V c t), sout1_C (args1 V c t) c hf hl (prev1 V c t)) := by
  obtain ⟨_ | n, hn⟩ := t
  · exact absurd rfl (pos_of_not_first1 hf)
  · exact (dif_neg hf).trans (dif_pos hl)

/-- The region's invariant between points, with what is said of the accumulator singled out. -/
abbrev accInv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

/-- Before the first point the accumulator holds anything; afterwards what the point before left. -/
def PhiS1 (c : Dev nD) : (n : ℕ) → n ≤ cfg1.N → sProp 𝕄
  | 0, _ => Pipeline.ΦA spec1 c
  | n + 1, hn => accInv1 c (owns (c : Thread nD τ) acc1 fullShare ((outsAt1 V c n hn).2))

theorem PhiS1_pos (c : Dev nD) (n : ℕ) (h : n ≤ cfg1.N) (hz : n ≠ 0) :
    PhiS1 V c n h = accInv1 c (owns (c : Thread nD τ) acc1 fullShare ((outsAt1 V c (n - 1) (by omega)).2)) := by
  cases n with
  | zero => exact absurd rfl hz
  | succ n => rfl
/-- At every point the invariant owns the accumulator at some contents. -/
theorem PhiS1_forget (c : Dev nD) (n : ℕ) (h : n ≤ cfg1.N) : PhiS1 V c n h ⊢ accInv1 c iprop(∃ d, owns (c : Thread nD τ) acc1 fullShare d) := by
  cases n with
  | zero => rw [show PhiS1 V c 0 h = Pipeline.ΦA spec1 c from rfl, PhiA1_eq]
  | succ n => exact sep_mono_left (sep_mono_left (exists_intro (Φ := fun d => owns (c : Thread nD τ) acc1 fullShare d) _))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem after1_7 (c : Dev nD) (t : Fin cfg1.N) : (dat1 V c).after 7 t = (outsAt1 V c t.val t.isLt).1 := rfl

/-- An input window's buffer holds its block of the array at every point. -/
theorem before1_0 (c : Dev nD) (t : Fin cfg1.N) (d) : (dat1 V c).before 0 t d = (args1 V c t).x0 :=
  ((dat1 V c).before_in_eq_fetched 0 rfl (fun _ => rfl) (fun _ _ _ => rfl) (fun _ => rfl) t d).trans rfl
theorem before1_1 (c : Dev nD) (t : Fin cfg1.N) (d) : (dat1 V c).before 1 t d = (args1 V c t).x1 :=
  ((dat1 V c).before_in_eq_fetched 1 rfl (fun _ => rfl) (fun _ _ _ => rfl) (fun _ => rfl) t d).trans rfl
theorem before1_2 (c : Dev nD) (t : Fin cfg1.N) (d) : (dat1 V c).before 2 t d = (args1 V c t).x2 :=
  ((dat1 V c).before_in_eq_fetched 2 rfl (fun _ => rfl) (fun _ _ _ => rfl) (fun _ => rfl) t d).trans rfl
theorem before1_3 (c : Dev nD) (t : Fin cfg1.N) (d) : (dat1 V c).before 3 t d = (args1 V c t).x3 :=
  ((dat1 V c).before_in_eq_fetched 3 rfl (fun _ => rfl) (fun _ _ _ => rfl) (fun _ => rfl) t d).trans rfl
theorem before1_4 (c : Dev nD) (t : Fin cfg1.N) (d) : (dat1 V c).before 4 t d = (args1 V c t).x4 :=
  ((dat1 V c).before_in_eq_fetched 4 rfl (fun _ => rfl) (fun _ _ _ => rfl) (fun _ => rfl) t d).trans rfl
theorem before1_5 (c : Dev nD) (t : Fin cfg1.N) (d) : (dat1 V c).before 5 t d = (args1 V c t).x5 :=
  ((dat1 V c).before_in_eq_fetched 5 rfl (fun _ => rfl) (fun _ _ _ => rfl) (fun _ => rfl) t d).trans rfl
theorem before1_6 (c : Dev nD) (t : Fin cfg1.N) (d) : (dat1 V c).before 6 t d = (args1 V c t).x6 :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (args1 V c t).a0 fullShare ((dat1 V c).before 0 t d))
    ∗ (∃ d, owns (c : Thread nD τ) (args1 V c t).a1 fullShare ((dat1 V c).before 1 t d))
    ∗ (∃ d, owns (c : Thread nD τ) (args1 V c t).a2 fullShare ((dat1 V c).before 2 t d))
    ∗ (∃ d, owns (c : Thread nD τ) (args1 V c t).a3 fullShare ((dat1 V c).before 3 t d))
    ∗ (∃ d, owns (c : Thread nD τ) (args1 V c t).a4 fullShare ((dat1 V c).before 4 t d))
    ∗ (∃ d, owns (c : Thread nD τ) (args1 V c t).a5 fullShare ((dat1 V c).before 5 t d))
    ∗ (∃ d, owns (c : Thread nD τ) (args1 V c t).a6 fullShare ((dat1 V c).before 6 t d))
    ∗ (∃ d, owns (c : Thread nD τ) (args1 V c t).a7 fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = accInv1 c (owns (c : Thread nD τ) acc1 fullShare (outsAt1 V c t.val t.isLt).2) from rfl,
    show (dat1 V c).Φ t.castSucc = PhiS1 V c t.val (Nat.le_of_lt t.isLt) from rfl]
  rw [show (dat1 V c).leavesExact 0 t = owns (c : Thread nD τ) (args1 V c t).a0 fullShare (args1 V c t).x0 from by
    unfold Dat.leavesExact; rw [live1_0 t]; rfl]
  rw [show (dat1 V c).leavesExact 1 t = owns (c : Thread nD τ) (args1 V c t).a1 fullShare (args1 V c t).x1 from by
    unfold Dat.leavesExact; rw [live1_1 t]; rfl]
  rw [show (dat1 V c).leavesExact 2 t = owns (c : Thread nD τ) (args1 V c t).a2 fullShare (args1 V c t).x2 from by
    unfold Dat.leavesExact; rw [live1_2 t]; rfl]
  rw [show (dat1 V c).leavesExact 3 t = owns (c : Thread nD τ) (args1 V c t).a3 fullShare (args1 V c t).x3 from by
    unfold Dat.leavesExact; rw [live1_3 t]; rfl]
  rw [show (dat1 V c).leavesExact 4 t = owns (c : Thread nD τ) (args1 V c t).a4 fullShare (args1 V c t).x4 from by
    unfold Dat.leavesExact; rw [live1_4 t]; rfl]
  rw [show (dat1 V c).leavesExact 5 t = owns (c : Thread nD τ) (args1 V c t).a5 fullShare (args1 V c t).x5 from by
    unfold Dat.leavesExact; rw [live1_5 t]; rfl]
  rw [show (dat1 V c).leavesExact 6 t = owns (c : Thread nD τ) (args1 V c t).a6 fullShare (args1 V c t).x6 from by
    unfold Dat.leavesExact; rw [live1_6 t]; rfl]
  by_cases hf : first1 (grid1.coords t)
  · have hl := not_last1 hf
    rw [Dat.leavesExact_idle (dat1 V c) 7 t (idle1_7 t hl) (noFlush1_7 t hl), outsAt1_A V c t hf]
    unfold sout1_A; dsimp only
    refine (sep_mono_left (PhiS1_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args1 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A (args1 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS1_pos V c _ _ (pos_of_not_first1 hf)]
    by_cases hl : last1 (grid1.coords t)
    · rw [show (dat1 V c).leavesExact 7 t = owns (c : Thread nD τ) (args1 V c t).a7 fullShare ((dat1 V c).after 7 t) from by
        unfold Dat.leavesExact; rw [live1_7 t hl], after1_7, outsAt1_C V c t hf hl]
      unfold out1_C sout1_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args1 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C (args1 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C (args1 V c t) c hf hl _)
    · rw [Dat.leavesExact_idle (dat1 V c) 7 t (idle1_7 t hl) (noFlush1_7 t hl), outsAt1_B V c t hf hl]
      unfold sout1_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args1 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B (args1 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

/-- After the last point the accumulator's contents are forgotten. -/
theorem hout1 (c : Dev nD) : (dat1 V c).Φ (Fin.last cfg1.N) ⊢ Pipeline.ΦA spec1 c := by
  rw [PhiA1_eq]; exact PhiS1_forget V c cfg1.N (Nat.le_refl _)

end Layer

end Cert.Kernel.Gen

end
-- ==== Proof.K.Conds2.lean ====
import proofs.«141190_j33311766347902_1_alg».proof.Proof.Gen.Kernel.Launch
import proofs.«141190_j33311766347902_1_alg».proof.Proof.Gen.Kernel.Skeleton
import proofs.«141190_j33311766347902_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first2 (i : grid2.Coords) : Prop := (Scalar.cmpi .ne (Scalar.extui (Scalar.cmpi .eq (BitVec.ofNat 32 (i 2).val) 0#32)) 0#32) = 1#1
theorem hfirst2 : ∀ t : Fin cfg2.N, first2 (grid2.coords t) ↔ t.val % 8 = 0 :=
  (by decide +kernel : ∀ t : Fin grid2.N, first2 (grid2.coords t) ↔ t.val % 8 = 0)

abbrev last2 (i : grid2.Coords) : Prop := k2_cond2 i = 1#1
theorem hlast2 : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel

theorem idle2_7 : ∀ t : Fin cfg2.N, ¬last2 (grid2.coords t) → cfg2.idle 7 (grid2.coords t) = true := by decide +kernel
theorem noFlush2_7 : ∀ t : Fin cfg2.N, ¬last2 (grid2.coords t) → (cfg2.win 7).flush t = false := by decide +kernel
theorem live2_7 : ∀ t : Fin cfg2.N, last2 (grid2.coords t) → cfg2.idle 7 (grid2.coords t) = false := by decide +kernel

abbrev acc2 : Memref sig .tc .vmem S1024x1000 .f32 := Memref.whole cc2_scratch0
abbrev accV2 : View sig .tc .vmem S1024x1000 .f32 := acc2.view
abbrev outV2 : View sig .tc .vmem S1024x1000 .f32 := (Memref.whole cc2_stg7_0 : Memref sig .tc .vmem S1024x1000 .f32).view

theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.Kernel.Gen

end
-- ==== Proof.K.Run2.lean ====
import proofs.«141190_j33311766347902_1_alg».proof.Proof.K.Conds2
import proofs.«141190_j33311766347902_1_alg».proof.Proof.K.Owns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg3 : Memref sig .tc .vmem S1024x512 .bf16) (harg3 : arg3.IsWhole) (arg4 : Memref sig .tc .vmem S1000x512 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S1x1000 .f32) (harg8 : arg8.IsWhole) (arg9 : Memref sig .tc .vmem S1x1000 .f32) (harg9 : arg9.IsWhole) (arg10 : Memref sig .tc .vmem S1024x1000 .f32) (harg10 : arg10.IsWhole) (arg11 : Memref sig .tc .vmem S1024x1000 .f32) (harg11 : arg11.IsWhole)
  (x0 : Vec F S1024x512 .bf16) (x1 : Vec F S1000x512 .f32) (x2 : Vec F S1x1000 .f32) (x3 : Vec F S1x1000 .f32) (x4 : Vec F S1x1000 .f32) (x5 : Vec F S1x1000 .f32) (x6 : Vec F S1x1000 .f32)

set_option maxHeartbeats 4000000 in
/-- A first step of the contraction: the accumulator, whatever it held, is zeroed and takes the step's product. -/
noncomputable def kernelRun2_A (hc0 : first2 i) (hc1 : ¬last2 i) :
    { LS : List (View.Piece (Elt F) S1024x1000 .f32) //
      ∀ (xi : Vec F S1024x1000 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun2_B (hc0 : ¬first2 i) (hc1 : ¬last2 i) (xs : Vec F S1024x1000 .f32) :
    { LS : List (View.Piece (Elt F) S1024x1000 .f32) //
      ∀ (xi : Vec F S1024x1000 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun2_C (hc0 : ¬first2 i) (hc1 : last2 i) (xs : Vec F S1024x1000 .f32) :
    Σ' (L7 : List (View.Piece (Elt F) S1024x1000 .f32)), { LS : List (View.Piece (Elt F) S1024x1000 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.Kernel.Gen

end
-- ==== Proof.K.Data2.lean ====
import proofs.«141190_j33311766347902_1_alg».proof.Proof.K.Run2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args2 (F : FTy → Type) where
  i : grid2.Coords
  a0 : Memref sig .tc .vmem S1024x512 .bf16
  h0 : a0.IsWhole
  a1 : Memref sig .tc .vmem S1000x512 .f32
  h1 : a1.IsWhole
  a2 : Memref sig .tc .vmem S1x1000 .f32
  h2 : a2.IsWhole
  a3 : Memref sig .tc .vmem S1x1000 .f32
  h3 : a3.IsWhole
  a4 : Memref sig .tc .vmem S1x1000 .f32
  h4 : a4.IsWhole
  a5 : Memref sig .tc .vmem S1x1000 .f32
  h5 : a5.IsWhole
  a6 : Memref sig .tc .vmem S1x1000 .f32
  h6 : a6.IsWhole
  a7 : Memref sig .tc .vmem S1024x1000 .f32
  h7 : a7.IsWhole
  acc : Memref sig .tc .vmem S1024x1000 .f32
  hacc : acc.IsWhole
  x0 : Vec F S1024x512 .bf16
  x1 : Vec F S1000x512 .f32
  x2 : Vec F S1x1000 .f32
  x3 : Vec F S1x1000 .f32
  x4 : Vec F S1x1000 .f32
  x5 : Vec F S1x1000 .f32
  x6 : Vec F S1x1000 .f32

namespace Args2
variable (a : Args2 F) (c : Dev nD)

/-- The run at a first, a middle and a last step of the contraction (the last two over the accumulator's contents). -/
abbrev runA (hf : first2 a.i) (hl : ¬last2 a.i) :=
  kernelRun2_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first2 a.i) (hl : ¬last2 a.i) (xs : Vec F S1024x1000 .f32) :=
  kernelRun2_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first2 a.i) (hl : last2 a.i) (xs : Vec F S1024x1000 .f32) :=
  kernelRun2_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args2

section Pieces
variable (a : Args2 F) (c : Dev nD)

theorem scover2_A (hf : first2 a.i) (hl : ¬last2 a.i) (y : S1024x1000.Idx) : ∃ pc ∈ (a.runA c hf hl).1, y ∈ pc.1.set :=
  View.cover_of_tiledL _ S1024x1000.size (by sl_kernel_rfl) y
/-- The accumulator after a run: the pieces it stored, read back. -/
def sout2_A (hf : first2 a.i) (hl : ¬last2 a.i) : Vec F S1024x1000 .f32 :=
  accV2.read (Elt F) (accV2.writes (Elt F) accV2.junk (a.runA c hf hl).1)
theorem scover2_B (hf : ¬first2 a.i) (hl : ¬last2 a.i) (xs : Vec F S1024x1000 .f32) (y : S1024x1000.Idx) : ∃ pc ∈ (a.runB c hf hl xs).1, y ∈ pc.1.set :=
  View.cover_of_tiledL _ S1024x1000.size (by sl_kernel_rfl) y
def sout2_B (hf : ¬first2 a.i) (hl : ¬last2 a.i) (xs : Vec F S1024x1000 .f32) : Vec F S1024x1000 .f32 :=
  accV2.read (Elt F) (accV2.writes (Elt F) accV2.junk (a.runB c hf hl xs).1)
theorem scover2_C (hf : ¬first2 a.i) (hl : last2 a.i) (xs : Vec F S1024x1000 .f32) (y : S1024x1000.Idx) : ∃ pc ∈ (a.runC c hf hl xs).2.1, y ∈ pc.1.set :=
  View.cover_of_tiledL _ S1024x1000.size (by sl_kernel_rfl) y
def sout2_C (hf : ¬first2 a.i) (hl : last2 a.i) (xs : Vec F S1024x1000 .f32) : Vec F S1024x1000 .f32 :=
  accV2.read (Elt F) (accV2.writes (Elt F) accV2.junk (a.runC c hf hl xs).2.1)
theorem cover2_C (hf : ¬first2 a.i) (hl : last2 a.i) (xs : Vec F S1024x1000 .f32) (y : S1024x1000.Idx) : ∃ pc ∈ (a.runC c hf hl xs).1, y ∈ pc.1.set :=
  View.cover_of_tiledL _ S1024x1000.size (by sl_kernel_rfl) y
/-- The output tile a last step stores. -/
def out2_C (hf : ¬first2 a.i) (hl : last2 a.i) (xs : Vec F S1024x1000 .f32) : Vec F S1024x1000 .f32 :=
  outV2.read (Elt F) (outV2.writes (Elt F) outV2.junk (a.runC c hf hl xs).1)
/-- Off the last step the body stores nothing into the output's buffer: a placeholder nothing consults. -/
def out2_idle : Vec F S1024x1000 .f32 := outV2.read (Elt F) outV2.junk

end Pieces

theorem not_last2 {t : Fin cfg2.N} (hf : first2 (grid2.coords t)) : ¬last2 (grid2.coords t) := fun hl => by
  have := (hfirst2 t).mp hf; have := (hlast2 t).mp hl; omega
theorem pos_of_not_first2 {t : Fin cfg2.N} (hf : ¬first2 (grid2.coords t)) : t.val ≠ 0 := fun e =>
  hf ((hfirst2 t).mpr (by rw [e]))

section Layer
variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's operands at point `t`: each window's buffer, the accumulator, and the input blocks read off the arrays. -/
abbrev args2 (c : Dev nD) (t : Fin cfg2.N) : Args2 F :=
  ⟨grid2.coords t, win2_0.stage (cfg2.slots t 0), hstage2_0 ((cfg2.slots t 0).cast nbuf2_0),
    win2_1.stage (cfg2.slots t 1), hstage2_1 ((cfg2.slots t 1).cast nbuf2_1),
    win2_2.stage (cfg2.slots t 2), hstage2_2 ((cfg2.slots t 2).cast nbuf2_2),
    win2_3.stage (cfg2.slots t 3), hstage2_3 ((cfg2.slots t 3).cast nbuf2_3),
    win2_4.stage (cfg2.slots t 4), hstage2_4 ((cfg2.slots t 4).cast nbuf2_4),
    win2_5.stage (cfg2.slots t 5), hstage2_5 ((cfg2.slots t 5).cast nbuf2_5),
    win2_6.stage (cfg2.slots t 6), hstage2_6 ((cfg2.slots t 6).cast nbuf2_6),
    win2_7.stage (cfg2.slots t 7), hstage2_7 ((cfg2.slots t 7).cast nbuf2_7), acc2, Memref.isWhole_whole _,
    iblk2 V c 0 t, iblk2 V c 1 t, iblk2 V c 2 t, iblk2 V c 3 t, iblk2 V c 4 t, iblk2 V c 5 t, iblk2 V c 6 t⟩

/-- The output's buffer and the accumulator after point `n`: reset at a first step, accumulated at the others, the tile stored at a last. -/
def outsAt2 (c : Dev nD) : (n : ℕ) → n < cfg2.N → Vec F S1024x1000 .f32 × Vec F S1024x1000 .f32
  | 0, hn => (out2_idle, sout2_A (args2 V c ⟨0, hn⟩) c ((hfirst2 ⟨0, hn⟩).mpr (Nat.zero_mod _)) (not_last2 ((hfirst2 ⟨0, hn⟩).mpr (Nat.zero_mod _))))
  | n + 1, hn =>
    if hf : first2 (grid2.coords ⟨n + 1, hn⟩) then (out2_idle, sout2_A (args2 V c ⟨n + 1, hn⟩) c hf (not_last2 hf))
    else if hl : last2 (grid2.coords ⟨n + 1, hn⟩) then
      (out2_C (args2 V c ⟨n + 1, hn⟩) c hf hl (outsAt2 c n (Nat.lt_of_succ_lt hn)).2,
        sout2_C (args2 V c ⟨n + 1, hn⟩) c hf hl (outsAt2 c n (Nat.lt_of_succ_lt hn)).2)
    else (out2_idle, sout2_B (args2 V c ⟨n + 1, hn⟩) c hf hl (outsAt2 c n (Nat.lt_of_succ_lt hn)).2)

/-- What the point before `t` left in the accumulator. -/
abbrev prev2 (c : Dev nD) (t : Fin cfg2.N) : Vec F S1024x1000 .f32 :=
  (outsAt2 V c (t.val - 1) (Nat.lt_of_le_of_lt (Nat.sub_le _ _) t.isLt)).2

theorem outsAt2_A (c : Dev nD) (t : Fin cfg2.N) (hf : first2 (grid2.coords t)) :
    outsAt2 V c t.val t.isLt = (out2_idle, sout2_A (args2 V c t) c hf (not_last2 hf)) := by
  obtain ⟨_ | n, hn⟩ := t
  · rfl
  · exact dif_pos hf
theorem outsAt2_B (c : Dev nD) (t : Fin cfg2.N) (hf : ¬first2 (grid2.coords t)) (hl : ¬last2 (grid2.coords t)) :
    outsAt2 V c t.val t.isLt = (out2_idle, sout2_B (args2 V c t) c hf hl (prev2 V c t)) := by
  obtain ⟨_ | n, hn⟩ := t
  · exact absurd rfl (pos_of_not_first2 hf)
  · exact (dif_neg hf).trans (dif_neg hl)
theorem outsAt2_C (c : Dev nD) (t : Fin cfg2.N) (hf : ¬first2 (grid2.coords t)) (hl : last2 (grid2.coords t)) :
    outsAt2 V c t.val t.isLt = (out2_C (args2 V c t) c hf hl (prev2 V c t), sout2_C (args2 V c t) c hf hl (prev2 V c t)) := by
  obtain ⟨_ | n, hn⟩ := t
  · exact absurd rfl (pos_of_not_first2 hf)
  · exact (dif_neg hf).trans (dif_pos hl)

/-- The region's invariant between points, with what is said of the accumulator singled out. -/
abbrev accInv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

/-- Before the first point the accumulator holds anything; afterwards what the point before left. -/
def PhiS2 (c : Dev nD) : (n : ℕ) → n ≤ cfg2.N → sProp 𝕄
  | 0, _ => Pipeline.ΦA spec2 c
  | n + 1, hn => accInv2 c (owns (c : Thread nD τ) acc2 fullShare ((outsAt2 V c n hn).2))

theorem PhiS2_pos (c : Dev nD) (n : ℕ) (h : n ≤ cfg2.N) (hz : n ≠ 0) :
    PhiS2 V c n h = accInv2 c (owns (c : Thread nD τ) acc2 fullShare ((outsAt2 V c (n - 1) (by omega)).2)) := by
  cases n with
  | zero => exact absurd rfl hz
  | succ n => rfl
/-- At every point the invariant owns the accumulator at some contents. -/
theorem PhiS2_forget (c : Dev nD) (n : ℕ) (h : n ≤ cfg2.N) : PhiS2 V c n h ⊢ accInv2 c iprop(∃ d, owns (c : Thread nD τ) acc2 fullShare d) := by
  cases n with
  | zero => rw [show PhiS2 V c 0 h = Pipeline.ΦA spec2 c from rfl, PhiA2_eq]
  | succ n => exact sep_mono_left (sep_mono_left (exists_intro (Φ := fun d => owns (c : Thread nD τ) acc2 fullShare d) _))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem after2_7 (c : Dev nD) (t : Fin cfg2.N) : (dat2 V c).after 7 t = (outsAt2 V c t.val t.isLt).1 := rfl

/-- An input window's buffer holds its block of the array at every point. -/
theorem before2_0 (c : Dev nD) (t : Fin cfg2.N) (d) : (dat2 V c).before 0 t d = (args2 V c t).x0 :=
  ((dat2 V c).before_in_eq_fetched 0 rfl (fun _ => rfl) (fun _ _ _ => rfl) (fun _ => rfl) t d).trans rfl
theorem before2_1 (c : Dev nD) (t : Fin cfg2.N) (d) : (dat2 V c).before 1 t d = (args2 V c t).x1 :=
  ((dat2 V c).before_in_eq_fetched 1 rfl (fun _ => rfl) (fun _ _ _ => rfl) (fun _ => rfl) t d).trans rfl
theorem before2_2 (c : Dev nD) (t : Fin cfg2.N) (d) : (dat2 V c).before 2 t d = (args2 V c t).x2 :=
  ((dat2 V c).before_in_eq_fetched 2 rfl (fun _ => rfl) (fun _ _ _ => rfl) (fun _ => rfl) t d).trans rfl
theorem before2_3 (c : Dev nD) (t : Fin cfg2.N) (d) : (dat2 V c).before 3 t d = (args2 V c t).x3 :=
  ((dat2 V c).before_in_eq_fetched 3 rfl (fun _ => rfl) (fun _ _ _ => rfl) (fun _ => rfl) t d).trans rfl
theorem before2_4 (c : Dev nD) (t : Fin cfg2.N) (d) : (dat2 V c).before 4 t d = (args2 V c t).x4 :=
  ((dat2 V c).before_in_eq_fetched 4 rfl (fun _ => rfl) (fun _ _ _ => rfl) (fun _ => rfl) t d).trans rfl
theorem before2_5 (c : Dev nD) (t : Fin cfg2.N) (d) : (dat2 V c).before 5 t d = (args2 V c t).x5 :=
  ((dat2 V c).before_in_eq_fetched 5 rfl (fun _ => rfl) (fun _ _ _ => rfl) (fun _ => rfl) t d).trans rfl
theorem before2_6 (c : Dev nD) (t : Fin cfg2.N) (d) : (dat2 V c).before 6 t d = (args2 V c t).x6 :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (args2 V c t).a0 fullShare ((dat2 V c).before 0 t d))
    ∗ (∃ d, owns (c : Thread nD τ) (args2 V c t).a1 fullShare ((dat2 V c).before 1 t d))
    ∗ (∃ d, owns (c : Thread nD τ) (args2 V c t).a2 fullShare ((dat2 V c).before 2 t d))
    ∗ (∃ d, owns (c : Thread nD τ) (args2 V c t).a3 fullShare ((dat2 V c).before 3 t d))
    ∗ (∃ d, owns (c : Thread nD τ) (args2 V c t).a4 fullShare ((dat2 V c).before 4 t d))
    ∗ (∃ d, owns (c : Thread nD τ) (args2 V c t).a5 fullShare ((dat2 V c).before 5 t d))
    ∗ (∃ d, owns (c : Thread nD τ) (args2 V c t).a6 fullShare ((dat2 V c).before 6 t d))
    ∗ (∃ d, owns (c : Thread nD τ) (args2 V c t).a7 fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = accInv2 c (owns (c : Thread nD τ) acc2 fullShare (outsAt2 V c t.val t.isLt).2) from rfl,
    show (dat2 V c).Φ t.castSucc = PhiS2 V c t.val (Nat.le_of_lt t.isLt) from rfl]
  rw [show (dat2 V c).leavesExact 0 t = owns (c : Thread nD τ) (args2 V c t).a0 fullShare (args2 V c t).x0 from by
    unfold Dat.leavesExact; rw [live2_0 t]; rfl]
  rw [show (dat2 V c).leavesExact 1 t = owns (c : Thread nD τ) (args2 V c t).a1 fullShare (args2 V c t).x1 from by
    unfold Dat.leavesExact; rw [live2_1 t]; rfl]
  rw [show (dat2 V c).leavesExact 2 t = owns (c : Thread nD τ) (args2 V c t).a2 fullShare (args2 V c t).x2 from by
    unfold Dat.leavesExact; rw [live2_2 t]; rfl]
  rw [show (dat2 V c).leavesExact 3 t = owns (c : Thread nD τ) (args2 V c t).a3 fullShare (args2 V c t).x3 from by
    unfold Dat.leavesExact; rw [live2_3 t]; rfl]
  rw [show (dat2 V c).leavesExact 4 t = owns (c : Thread nD τ) (args2 V c t).a4 fullShare (args2 V c t).x4 from by
    unfold Dat.leavesExact; rw [live2_4 t]; rfl]
  rw [show (dat2 V c).leavesExact 5 t = owns (c : Thread nD τ) (args2 V c t).a5 fullShare (args2 V c t).x5 from by
    unfold Dat.leavesExact; rw [live2_5 t]; rfl]
  rw [show (dat2 V c).leavesExact 6 t = owns (c : Thread nD τ) (args2 V c t).a6 fullShare (args2 V c t).x6 from by
    unfold Dat.leavesExact; rw [live2_6 t]; rfl]
  by_cases hf : first2 (grid2.coords t)
  · have hl := not_last2 hf
    rw [Dat.leavesExact_idle (dat2 V c) 7 t (idle2_7 t hl) (noFlush2_7 t hl), outsAt2_A V c t hf]
    unfold sout2_A; dsimp only
    refine (sep_mono_left (PhiS2_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args2 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A (args2 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS2_pos V c _ _ (pos_of_not_first2 hf)]
    by_cases hl : last2 (grid2.coords t)
    · rw [show (dat2 V c).leavesExact 7 t = owns (c : Thread nD τ) (args2 V c t).a7 fullShare ((dat2 V c).after 7 t) from by
        unfold Dat.leavesExact; rw [live2_7 t hl], after2_7, outsAt2_C V c t hf hl]
      unfold out2_C sout2_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args2 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C (args2 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_C (args2 V c t) c hf hl _)
    · rw [Dat.leavesExact_idle (dat2 V c) 7 t (idle2_7 t hl) (noFlush2_7 t hl), outsAt2_B V c t hf hl]
      unfold sout2_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args2 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B (args2 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

/-- After the last point the accumulator's contents are forgotten. -/
theorem hout2 (c : Dev nD) : (dat2 V c).Φ (Fin.last cfg2.N) ⊢ Pipeline.ΦA spec2 c := by
  rw [PhiA2_eq]; exact PhiS2_forget V c cfg2.N (Nat.le_refl _)

end Layer

end Cert.Kernel.Gen

end
-- ==== Proof.K.Regions.lean ====
import proofs.«141190_j33311766347902_1_alg».proof.Proof.Gen.Kernel.Regions
import proofs.«141190_j33311766347902_1_alg».proof.Proof.K.Data0
import proofs.«141190_j33311766347902_1_alg».proof.Proof.K.Data1
import proofs.«141190_j33311766347902_1_alg».proof.Proof.K.Data2
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E1 (c : Dev nD) (b : Ref sig .tc) : Buf (Elt F) ((c : Thread nD τ).loc b) := V1 m c (Proc.devRef .tc b)
abbrev E1v (c : Dev nD) : Valuation τ sig (Elt F) := V1 m c

def res1 (c : Dev nD) : Buf (Elt F) ((c : Thread nD τ).loc main_v5) := (dat0 (E1 m) c).arrAt 7 cfg0.N

def U2 (c : Dev nD) : Valuation τ sig (Elt F) := Function.update (V1 m c) (Proc.devRef .tc main_v5) (res1 m c)

abbrev E3v (c : Dev nD) : Valuation τ sig (Elt F) := StableHlo.after hostOps1 (U2 m c)
abbrev E3 (c : Dev nD) (b : Ref sig .tc) : Buf (Elt F) ((c : Thread nD τ).loc b) := E3v m c (Proc.devRef .tc b)
def res2 (c : Dev nD) : Buf (Elt F) ((c : Thread nD τ).loc main_v11) := (dat1 (E3 m) c).arrAt 7 cfg1.N
def U4 (c : Dev nD) : Valuation τ sig (Elt F) := Function.update (E3v m c) (Proc.devRef .tc main_v11) (res2 m c)
abbrev E5v (c : Dev nD) : Valuation τ sig (Elt F) := StableHlo.after hostOps2 (U4 m c)
abbrev E5 (c : Dev nD) (b : Ref sig .tc) : Buf (Elt F) ((c : Thread nD τ).loc b) := E5v m c (Proc.devRef .tc b)
def res3 (c : Dev nD) : Buf (Elt F) ((c : Thread nD τ).loc main_v17) := (dat2 (E5 m) c).arrAt 7 cfg2.N
def U6 (c : Dev nD) : Valuation τ sig (Elt F) := Function.update (E5v m c) (Proc.devRef .tc main_v17) (res3 m c)

def outsOf : Outs (F := F) := fun J r c =>
  match J with
  | 2 => U2 m c (Proc.devRef .tc r)
  | 4 => U4 m c (Proc.devRef .tc r)
  | _ => U6 m c (Proc.devRef .tc r)

theorem outs2 (c : Dev nD) : outsOf m 2 main_v5 c = res1 m c := by
  show U2 m c (Proc.devRef .tc main_v5) = _; unfold U2; exact Function.update_self _ _ _
theorem outs4 (c : Dev nD) : outsOf m 4 main_v11 c = res2 m c := by
  show U4 m c (Proc.devRef .tc main_v11) = _; unfold U4; exact Function.update_self _ _ _
theorem outs6 (c : Dev nD) : outsOf m 6 main_v17 c = res3 m c := by
  show U6 m c (Proc.devRef .tc main_v17) = _; unfold U6; exact Function.update_self _ _ _
theorem V2_eq (c : Dev nD) : V2 m (outsOf m) c = U2 m c := by
  unfold V2; rw [outs2]; rfl
theorem V3_eq (c : Dev nD) : V3 m (outsOf m) c = E3v m c := by
  unfold V3; rw [V2_eq]
theorem V4_eq (c : Dev nD) : V4 m (outsOf m) c = U4 m c := by
  unfold V4; rw [outs4, V3_eq]; rfl
theorem V5_eq (c : Dev nD) : V5 m (outsOf m) c = E5v m c := by
  unfold V5; rw [V4_eq]
theorem V6_eq (c : Dev nD) : V6 m (outsOf m) c = U6 m c := by
  unfold V6; rw [outs6, V5_eq]; rfl

def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = U2 m c (Proc.devRef .tc (Pipeline.arrRef spec0 w)) := by
  have hin : ∀ w : Fin cfg0.W, (cfg0.win w).isOut = false → (pdats m 0 c).arrAt w cfg0.N = U2 m c (Proc.devRef .tc (Pipeline.arrRef spec0 w)) := fun w hw =>
    ((pdats m 0 c).arrAt_in w hw _).trans (by
      show E1 m c (Pipeline.arrRef spec0 w) = _
      unfold U2
      rw [Function.update_of_ne]
      revert hw; revert w; decide)
  match w with
  | ⟨7, _⟩ =>
    show _ = U2 m c (Proc.devRef .tc main_v5)
    unfold U2; rw [Function.update_self]; rfl
  | ⟨0, _⟩ | ⟨1, _⟩ | ⟨2, _⟩ | ⟨3, _⟩ | ⟨4, _⟩ | ⟨5, _⟩ | ⟨6, _⟩ => exact hin _ rfl
theorem hrest0 (c : Dev nD) : ∀ b, b ∉ Finset.univ.image (Pipeline.arrRef spec0) → U2 m c (Proc.devRef .tc b) = E1 m c b := by
  intro b hb
  unfold U2
  exact Function.update_of_ne (StableHlo.devRef_ne_of_ne fun e => hb (Finset.mem_image.mpr ⟨7, Finset.mem_univ _, e.symm⟩)) _ _

theorem hF1 (c : Dev nD) (w : Fin cfg1.W) : (pdats m 1 c).arrAt w cfg1.N = U4 m c (Proc.devRef .tc (Pipeline.arrRef spec1 w)) := by
  have hin : ∀ w : Fin cfg1.W, (cfg1.win w).isOut = false → (pdats m 1 c).arrAt w cfg1.N = U4 m c (Proc.devRef .tc (Pipeline.arrRef spec1 w)) := fun w hw =>
    ((pdats m 1 c).arrAt_in w hw _).trans (by
      show E3 m c (Pipeline.arrRef spec1 w) = _
      unfold U4
      rw [Function.update_of_ne]
      revert hw; revert w; decide)
  match w with
  | ⟨7, _⟩ =>
    show _ = U4 m c (Proc.devRef .tc main_v11)
    unfold U4; rw [Function.update_self]; rfl
  | ⟨0, _⟩ | ⟨1, _⟩ | ⟨2, _⟩ | ⟨3, _⟩ | ⟨4, _⟩ | ⟨5, _⟩ | ⟨6, _⟩ => exact hin _ rfl
theorem hrest1 (c : Dev nD) : ∀ b, b ∉ Finset.univ.image (Pipeline.arrRef spec1) → U4 m c (Proc.devRef .tc b) = E3 m c b := by
  intro b hb
  unfold U4
  exact Function.update_of_ne (StableHlo.devRef_ne_of_ne fun e => hb (Finset.mem_image.mpr ⟨7, Finset.mem_univ _, e.symm⟩)) _ _

theorem hF2 (c : Dev nD) (w : Fin cfg2.W) : (pdats m 2 c).arrAt w cfg2.N = U6 m c (Proc.devRef .tc (Pipeline.arrRef spec2 w)) := by
  have hin : ∀ w : Fin cfg2.W, (cfg2.win w).isOut = false → (pdats m 2 c).arrAt w cfg2.N = U6 m c (Proc.devRef .tc (Pipeline.arrRef spec2 w)) := fun w hw =>
    ((pdats m 2 c).arrAt_in w hw _).trans (by
      show E5 m c (Pipeline.arrRef spec2 w) = _
      unfold U6
      rw [Function.update_of_ne]
      revert hw; revert w; decide)
  match w with
  | ⟨7, _⟩ =>
    show _ = U6 m c (Proc.devRef .tc main_v17)
    unfold U6; rw [Function.update_self]; rfl
  | ⟨0, _⟩ | ⟨1, _⟩ | ⟨2, _⟩ | ⟨3, _⟩ | ⟨4, _⟩ | ⟨5, _⟩ | ⟨6, _⟩ => exact hin _ rfl
theorem hrest2 (c : Dev nD) : ∀ b, b ∉ Finset.univ.image (Pipeline.arrRef spec2) → U6 m c (Proc.devRef .tc b) = E5 m c b := by
  intro b hb
  unfold U6
  exact Function.update_of_ne (StableHlo.devRef_ne_of_ne fun e => hb (Finset.mem_image.mpr ⟨7, Finset.mem_univ _, e.symm⟩)) _ _

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    iintro ⟨Hp, -, Hr⟩
    iapply (hin0 (E1 m) c)
    unfold Pipeline.ΦA
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => U2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdats m 1 c).Φ (Fin.last _) = (dat1 (E3 m) c).Φ (Fin.last cfg1.N) from rfl]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => U4 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (E5v m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E5 m) c).Φ 0 from rfl]
    iintro ⟨Hp, -, Hr⟩
    iapply (hin2 (E5 m) c)
    unfold Pipeline.ΦA
    isplitl [Hr]; · iexact Hr
    iexact Hp
  hout c := by
    rw [Pipeline.ownSems0_none, show (pdats m 2 c).Φ (Fin.last _) = (dat2 (E5 m) c).Φ (Fin.last cfg2.N) from rfl]
    refine (hout2 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (fun b => U6 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem held_congr (c : Dev nD) {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := by
  subst h; exact .rfl

set_option backward.isDefEq.respectTransparency.types false in

theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U6 m c b) := by
  have hR0 : ∀ c : Dev nD, (iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c) : sProp 𝕄) ⊢ R c := fun c => by
    iintro ⟨-, HO, -, Hp, -⟩
    isplitl [Hp]; · iexists _; iexact Hp
    iexists ∅; iexact HO
  refine Pipeline.θ_run_regions_kit_dev (pcfgs (F := F)) adm (pdats m) () cellOf_inj emb₁ defs₀ 𝒱₀ L lv m ρ main
    (segs m (outsOf m) 𝒱₀ L lv (fun _ => R) () (pdats m) (reg0 m) (reg1 m) (reg2 m))
    (fun c Q => by
      rewrite [main_chain c, Pipeline.Seg.run_eq_chain,
        show (segs m (outsOf m) 𝒱₀ L lv (fun _ => R) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (U6 m c))
    (hch := fun c => ⟨.rfl, .rfl, held_congr c (V2_eq m c).symm, held_congr c (V3_eq m c), held_congr c (V4_eq m c).symm, held_congr c (V5_eq m c),
      sep_mono .rfl (by iintro ⟨-, HO⟩; iexact HO)⟩)
    (hinit := ?_) (QY := fun c s => ∀ b ∈ Pipeline.ucRefs τ sig, s.mem ((c : Thread nD τ).1, b) = U6 m c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c))
        ⊢ (bigSep Finset.univ fun c : Dev nD => iprop(StableHlo.held (c : Thread nD τ) (Pipeline.ucRefs τ sig) (V0 m c) ∗ R c) : sProp 𝕄) :=
      bigSep_mono fun c _ => by
        rw [← Pipeline.unscopedBufs_held (Ix := Unit) (Name := ℕ) (U := UR sig nD τ) (Lvl := ℕ) c (V0 m c)]
        exact sep_mono .rfl (hR0 c)
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact h
    · iexact HSI

theorem U6_result (c : Dev nD) : U6 m c (Proc.devRef .tc main_v17) = res3 m c := by
  unfold U6; exact Function.update_self _ _ _

theorem U6_kept (c : Dev nD) (b : Ref sig .tc) (e : V6 m (outsOf m) c (Proc.devRef .tc b) = m ((c : Thread nD τ).loc b)) :
    U6 m c (Proc.devRef .tc b) = m ((c : Thread nD τ).loc b) := by
  rw [← V6_eq]; exact e

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every execution ends with the result array at the last layer's result and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v17) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_v17 (by decide))).trans (U6_result m c),
    (h c _ (mem_uc main_arg0 (by decide))).trans (U6_kept m c _ (V6_main_arg0 m (outsOf m) c)),
    (h c _ (mem_uc main_arg1 (by decide))).trans (U6_kept m c _ (V6_main_arg1 m (outsOf m) c)),
    (h c _ (mem_uc main_arg2 (by decide))).trans (U6_kept m c _ (V6_main_arg2 m (outsOf m) c)),
    (h c _ (mem_uc main_arg3 (by decide))).trans (U6_kept m c _ (V6_main_arg3 m (outsOf m) c)),
    (h c _ (mem_uc main_arg4 (by decide))).trans (U6_kept m c _ (V6_main_arg4 m (outsOf m) c)),
    (h c _ (mem_uc main_arg5 (by decide))).trans (U6_kept m c _ (V6_main_arg5 m (outsOf m) c)),
    (h c _ (mem_uc main_arg6 (by decide))).trans (U6_kept m c _ (V6_main_arg6 m (outsOf m) c)),
    (h c _ (mem_uc main_arg7 (by decide))).trans (U6_kept m c _ (V6_main_arg7 m (outsOf m) c)),
    (h c _ (mem_uc main_arg8 (by decide))).trans (U6_kept m c _ (V6_main_arg8 m (outsOf m) c)),
    (h c _ (mem_uc main_arg9 (by decide))).trans (U6_kept m c _ (V6_main_arg9 m (outsOf m) c)),
    (h c _ (mem_uc main_arg10 (by decide))).trans (U6_kept m c _ (V6_main_arg10 m (outsOf m) c)),
    (h c _ (mem_uc main_arg11 (by decide))).trans (U6_kept m c _ (V6_main_arg11 m (outsOf m) c)),
    (h c _ (mem_uc main_arg12 (by decide))).trans (U6_kept m c _ (V6_main_arg12 m (outsOf m) c)),
    (h c _ (mem_uc main_arg13 (by decide))).trans (U6_kept m c _ (V6_main_arg13 m (outsOf m) c)),
    (h c _ (mem_uc main_arg14 (by decide))).trans (U6_kept m c _ (V6_main_arg14 m (outsOf m) c)),
    (h c _ (mem_uc main_arg15 (by decide))).trans (U6_kept m c _ (V6_main_arg15 m (outsOf m) c)),
    (h c _ (mem_uc main_arg16 (by decide))).trans (U6_kept m c _ (V6_main_arg16 m (outsOf m) c)),
    (h c _ (mem_uc main_arg17 (by decide))).trans (U6_kept m c _ (V6_main_arg17 m (outsOf m) c)),
    (h c _ (mem_uc main_arg18 (by decide))).trans (U6_kept m c _ (V6_main_arg18 m (outsOf m) c))⟩) (run_main m ρ)

end Cert.Kernel.Gen

end
-- ==== Proof.KI.Conds0.lean ====
import proofs.«141190_j33311766347902_1_alg».proof.Proof.Gen.KernelIdeal.Launch
import proofs.«141190_j33311766347902_1_alg».proof.Proof.Gen.KernelIdeal.Skeleton
import proofs.«141190_j33311766347902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 8 = 0 :=
  (by decide +kernel : ∀ t : Fin grid0.N, first0 (grid0.coords t) ↔ t.val % 8 = 0)

abbrev last0 (i : grid0.Coords) : Prop := k0_cond2 i = 1#1
theorem hlast0 : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel

theorem idle0_7 : ∀ t : Fin cfg0.N, ¬last0 (grid0.coords t) → cfg0.idle 7 (grid0.coords t) = true := by decide +kernel
theorem noFlush0_7 : ∀ t : Fin cfg0.N, ¬last0 (grid0.coords t) → (cfg0.win 7).flush t = false := by decide +kernel
theorem live0_7 : ∀ t : Fin cfg0.N, last0 (grid0.coords t) → cfg0.idle 7 (grid0.coords t) = false := by decide +kernel

abbrev acc0 : Memref sig .tc .vmem S1024x1024 .f32 := Memref.whole cc0_scratch0
abbrev accV0 : View sig .tc .vmem S1024x1024 .f32 := acc0.view
abbrev outV0 : View sig .tc .vmem S1024x1024 .bf16 := (Memref.whole cc0_stg7_0 : Memref sig .tc .vmem S1024x1024 .bf16).view

theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [acc0, owns_whole]; try rfl

end Cert.KernelIdeal.Gen

end
-- ==== Proof.KI.Owns.lean ====
import proofs.«141190_j33311766347902_1_alg».proof.Proof.Gen.KernelIdeal.Launch
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole memref owned at `x` is its buffer's points-to at the contents that read back as `x`. -/
theorem owns_unread {S : Shape} {e : EltTy} (c : Dev nD) (a : Memref sig .tc .vmem S e) (h : a.IsWhole) (x : Vec F S e) :
    (owns (c : Thread nD τ) a fullShare x : sProp 𝕄) = (a.view.loc (c : Thread nD τ) ↦[a.view.set]{fullShare} h.unread x) := by
  have h₁ : (owns (c : Thread nD τ) a fullShare x : sProp 𝕄) ⊢ (a.view.loc (c : Thread nD τ) ↦[a.view.set]{fullShare} h.unread x) := by
    unfold owns; iintro ⟨%f, %hf, H⟩; obtain rfl := h.eq_unread hf; iexact H
  have h₂ : (a.view.loc (c : Thread nD τ) ↦[a.view.set]{fullShare} h.unread x : sProp 𝕄) ⊢ owns (c : Thread nD τ) a fullShare x := by
    unfold owns; iintro H; iexists _; isplitr
    · ipureintro; exact h.read_unread _
    · iexact H
  exact BI.equiv_iff.mp ⟨h₁, h₂⟩

end Cert.KernelIdeal.Gen

end
-- ==== Proof.KI.Run0.lean ====
import proofs.«141190_j33311766347902_1_alg».proof.Proof.KI.Conds0
import proofs.«141190_j33311766347902_1_alg».proof.Proof.KI.Owns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
  (x0 : Vec F S1024x512 .f32) (x1 : Vec F S1024x512 .f32) (x2 : Vec F S1x1024 .f32) (x3 : Vec F S1x1024 .f32) (x4 : Vec F S1x1024 .f32) (x5 : Vec F S1x1024 .f32) (x6 : Vec F S1x1024 .f32)

set_option maxHeartbeats 4000000 in
/-- A first step of the contraction: the accumulator, whatever it held, is zeroed and takes the step's product. -/
noncomputable def kernelRun0_A (hc0 : first0 i) (hc1 : ¬last0 i) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun0_B (hc0 : ¬first0 i) (hc1 : ¬last0 i) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun0_C (hc0 : ¬first0 i) (hc1 : last0 i) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc0__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__mlp_layer_kernel_eq_skeleton]; unfold cc0__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.KernelIdeal.Gen

end
-- ==== Proof.KI.Data0.lean ====
import proofs.«141190_j33311766347902_1_alg».proof.Proof.KI.Run0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args0 (F : FTy → Type) where
  i : grid0.Coords
  a0 : Memref sig .tc .vmem S1024x512 .f32
  h0 : a0.IsWhole
  a1 : Memref sig .tc .vmem S1024x512 .f32
  h1 : a1.IsWhole
  a2 : Memref sig .tc .vmem S1x1024 .f32
  h2 : a2.IsWhole
  a3 : Memref sig .tc .vmem S1x1024 .f32
  h3 : a3.IsWhole
  a4 : Memref sig .tc .vmem S1x1024 .f32
  h4 : a4.IsWhole
  a5 : Memref sig .tc .vmem S1x1024 .f32
  h5 : a5.IsWhole
  a6 : Memref sig .tc .vmem S1x1024 .f32
  h6 : a6.IsWhole
  a7 : Memref sig .tc .vmem S1024x1024 .bf16
  h7 : a7.IsWhole
  acc : Memref sig .tc .vmem S1024x1024 .f32
  hacc : acc.IsWhole
  x0 : Vec F S1024x512 .f32
  x1 : Vec F S1024x512 .f32
  x2 : Vec F S1x1024 .f32
  x3 : Vec F S1x1024 .f32
  x4 : Vec F S1x1024 .f32
  x5 : Vec F S1x1024 .f32
  x6 : Vec F S1x1024 .f32

namespace Args0
variable (a : Args0 F) (c : Dev nD)

/-- The run at a first, a middle and a last step of the contraction (the last two over the accumulator's contents). -/
abbrev runA (hf : first0 a.i) (hl : ¬last0 a.i) :=
  kernelRun0_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first0 a.i) (hl : ¬last0 a.i) (xs : Vec F S1024x1024 .f32) :=
  kernelRun0_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first0 a.i) (hl : last0 a.i) (xs : Vec F S1024x1024 .f32) :=
  kernelRun0_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args0

section Pieces
variable (a : Args0 F) (c : Dev nD)

theorem scover0_A (hf : first0 a.i) (hl : ¬last0 a.i) (y : S1024x1024.Idx) : ∃ pc ∈ (a.runA c hf hl).1, y ∈ pc.1.set :=
  View.cover_of_tiledL _ S1024x1024.size (by sl_kernel_rfl) y
/-- The accumulator after a run: the pieces it stored, read back. -/
def sout0_A (hf : first0 a.i) (hl : ¬last0 a.i) : Vec F S1024x1024 .f32 :=
  accV0.read (Elt F) (accV0.writes (Elt F) accV0.junk (a.runA c hf hl).1)
theorem scover0_B (hf : ¬first0 a.i) (hl : ¬last0 a.i) (xs : Vec F S1024x1024 .f32) (y : S1024x1024.Idx) : ∃ pc ∈ (a.runB c hf hl xs).1, y ∈ pc.1.set :=
  View.cover_of_tiledL _ S1024x1024.size (by sl_kernel_rfl) y
def sout0_B (hf : ¬first0 a.i) (hl : ¬last0 a.i) (xs : Vec F S1024x1024 .f32) : Vec F S1024x1024 .f32 :=
  accV0.read (Elt F) (accV0.writes (Elt F) accV0.junk (a.runB c hf hl xs).1)
theorem scover0_C (hf : ¬first0 a.i) (hl : last0 a.i) (xs : Vec F S1024x1024 .f32) (y : S1024x1024.Idx) : ∃ pc ∈ (a.runC c hf hl xs).2.1, y ∈ pc.1.set :=
  View.cover_of_tiledL _ S1024x1024.size (by sl_kernel_rfl) y
def sout0_C (hf : ¬first0 a.i) (hl : last0 a.i) (xs : Vec F S1024x1024 .f32) : Vec F S1024x1024 .f32 :=
  accV0.read (Elt F) (accV0.writes (Elt F) accV0.junk (a.runC c hf hl xs).2.1)
theorem cover0_C (hf : ¬first0 a.i) (hl : last0 a.i) (xs : Vec F S1024x1024 .f32) (y : S1024x1024.Idx) : ∃ pc ∈ (a.runC c hf hl xs).1, y ∈ pc.1.set :=
  View.cover_of_tiledL _ S1024x1024.size (by sl_kernel_rfl) y
/-- The output tile a last step stores. -/
def out0_C (hf : ¬first0 a.i) (hl : last0 a.i) (xs : Vec F S1024x1024 .f32) : Vec F S1024x1024 .bf16 :=
  outV0.read (Elt F) (outV0.writes (Elt F) outV0.junk (a.runC c hf hl xs).1)
/-- Off the last step the body stores nothing into the output's buffer: a placeholder nothing consults. -/
def out0_idle : Vec F S1024x1024 .bf16 := outV0.read (Elt F) outV0.junk

end Pieces

theorem not_last0 {t : Fin cfg0.N} (hf : first0 (grid0.coords t)) : ¬last0 (grid0.coords t) := fun hl => by
  have := (hfirst0 t).mp hf; have := (hlast0 t).mp hl; omega
theorem pos_of_not_first0 {t : Fin cfg0.N} (hf : ¬first0 (grid0.coords t)) : t.val ≠ 0 := fun e =>
  hf ((hfirst0 t).mpr (by rw [e]))

section Layer
variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's operands at point `t`: each window's buffer, the accumulator, and the input blocks read off the arrays. -/
abbrev args0 (c : Dev nD) (t : Fin cfg0.N) : Args0 F :=
  ⟨grid0.coords t, win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7), acc0, Memref.isWhole_whole _,
    iblk0 V c 0 t, iblk0 V c 1 t, iblk0 V c 2 t, iblk0 V c 3 t, iblk0 V c 4 t, iblk0 V c 5 t, iblk0 V c 6 t⟩

/-- The output's buffer and the accumulator after point `n`: reset at a first step, accumulated at the others, the tile stored at a last. -/
def outsAt0 (c : Dev nD) : (n : ℕ) → n < cfg0.N → Vec F S1024x1024 .bf16 × Vec F S1024x1024 .f32
  | 0, hn => (out0_idle, sout0_A (args0 V c ⟨0, hn⟩) c ((hfirst0 ⟨0, hn⟩).mpr (Nat.zero_mod _)) (not_last0 ((hfirst0 ⟨0, hn⟩).mpr (Nat.zero_mod _))))
  | n + 1, hn =>
    if hf : first0 (grid0.coords ⟨n + 1, hn⟩) then (out0_idle, sout0_A (args0 V c ⟨n + 1, hn⟩) c hf (not_last0 hf))
    else if hl : last0 (grid0.coords ⟨n + 1, hn⟩) then
      (out0_C (args0 V c ⟨n + 1, hn⟩) c hf hl (outsAt0 c n (Nat.lt_of_succ_lt hn)).2,
        sout0_C (args0 V c ⟨n + 1, hn⟩) c hf hl (outsAt0 c n (Nat.lt_of_succ_lt hn)).2)
    else (out0_idle, sout0_B (args0 V c ⟨n + 1, hn⟩) c hf hl (outsAt0 c n (Nat.lt_of_succ_lt hn)).2)

/-- What the point before `t` left in the accumulator. -/
abbrev prev0 (c : Dev nD) (t : Fin cfg0.N) : Vec F S1024x1024 .f32 :=
  (outsAt0 V c (t.val - 1) (Nat.lt_of_le_of_lt (Nat.sub_le _ _) t.isLt)).2

theorem outsAt0_A (c : Dev nD) (t : Fin cfg0.N) (hf : first0 (grid0.coords t)) :
    outsAt0 V c t.val t.isLt = (out0_idle, sout0_A (args0 V c t) c hf (not_last0 hf)) := by
  obtain ⟨_ | n, hn⟩ := t
  · rfl
  · exact dif_pos hf
theorem outsAt0_B (c : Dev nD) (t : Fin cfg0.N) (hf : ¬first0 (grid0.coords t)) (hl : ¬last0 (grid0.coords t)) :
    outsAt0 V c t.val t.isLt = (out0_idle, sout0_B (args0 V c t) c hf hl (prev0 V c t)) := by
  obtain ⟨_ | n, hn⟩ := t
  · exact absurd rfl (pos_of_not_first0 hf)
  · exact (dif_neg hf).trans (dif_neg hl)
theorem outsAt0_C (c : Dev nD) (t : Fin cfg0.N) (hf : ¬first0 (grid0.coords t)) (hl : last0 (grid0.coords t)) :
    outsAt0 V c t.val t.isLt = (out0_C (args0 V c t) c hf hl (prev0 V c t), sout0_C (args0 V c t) c hf hl (prev0 V c t)) := by
  obtain ⟨_ | n, hn⟩ := t
  · exact absurd rfl (pos_of_not_first0 hf)
  · exact (dif_neg hf).trans (dif_pos hl)

/-- The region's invariant between points, with what is said of the accumulator singled out. -/
abbrev accInv0 (c : Dev nD) (P : sProp 𝕄) : sProp 𝕄 :=
  iprop(iprop(P ∗ Pipeline.scopedRestBut (Ix := Unit) (Name := ℕ) (U := UR sig nD τ) (Lvl := ℕ) (Val := Elt F) spec0 c [cc0_scratch0]) ∗ (∃ r, prngReg c r))

/-- Before the first point the accumulator holds anything; afterwards what the point before left. -/
def PhiS0 (c : Dev nD) : (n : ℕ) → n ≤ cfg0.N → sProp 𝕄
  | 0, _ => Pipeline.ΦA spec0 c
  | n + 1, hn => accInv0 c (owns (c : Thread nD τ) acc0 fullShare ((outsAt0 V c n hn).2))

theorem PhiS0_pos (c : Dev nD) (n : ℕ) (h : n ≤ cfg0.N) (hz : n ≠ 0) :
    PhiS0 V c n h = accInv0 c (owns (c : Thread nD τ) acc0 fullShare ((outsAt0 V c (n - 1) (by omega)).2)) := by
  cases n with
  | zero => exact absurd rfl hz
  | succ n => rfl
/-- At every point the invariant owns the accumulator at some contents. -/
theorem PhiS0_forget (c : Dev nD) (n : ℕ) (h : n ≤ cfg0.N) : PhiS0 V c n h ⊢ accInv0 c iprop(∃ d, owns (c : Thread nD τ) acc0 fullShare d) := by
  cases n with
  | zero => rw [show PhiS0 V c 0 h = Pipeline.ΦA spec0 c from rfl, PhiA0_eq]
  | succ n => exact sep_mono_left (sep_mono_left (exists_intro (Φ := fun d => owns (c : Thread nD τ) acc0 fullShare d) _))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem after0_7 (c : Dev nD) (t : Fin cfg0.N) : (dat0 V c).after 7 t = (outsAt0 V c t.val t.isLt).1 := rfl

/-- An input window's buffer holds its block of the array at every point. -/
theorem before0_0 (c : Dev nD) (t : Fin cfg0.N) (d) : (dat0 V c).before 0 t d = (args0 V c t).x0 :=
  ((dat0 V c).before_in_eq_fetched 0 rfl (fun _ => rfl) (fun _ _ _ => rfl) (fun _ => rfl) t d).trans rfl
theorem before0_1 (c : Dev nD) (t : Fin cfg0.N) (d) : (dat0 V c).before 1 t d = (args0 V c t).x1 :=
  ((dat0 V c).before_in_eq_fetched 1 rfl (fun _ => rfl) (fun _ _ _ => rfl) (fun _ => rfl) t d).trans rfl
theorem before0_2 (c : Dev nD) (t : Fin cfg0.N) (d) : (dat0 V c).before 2 t d = (args0 V c t).x2 :=
  ((dat0 V c).before_in_eq_fetched 2 rfl (fun _ => rfl) (fun _ _ _ => rfl) (fun _ => rfl) t d).trans rfl
theorem before0_3 (c : Dev nD) (t : Fin cfg0.N) (d) : (dat0 V c).before 3 t d = (args0 V c t).x3 :=
  ((dat0 V c).before_in_eq_fetched 3 rfl (fun _ => rfl) (fun _ _ _ => rfl) (fun _ => rfl) t d).trans rfl
theorem before0_4 (c : Dev nD) (t : Fin cfg0.N) (d) : (dat0 V c).before 4 t d = (args0 V c t).x4 :=
  ((dat0 V c).before_in_eq_fetched 4 rfl (fun _ => rfl) (fun _ _ _ => rfl) (fun _ => rfl) t d).trans rfl
theorem before0_5 (c : Dev nD) (t : Fin cfg0.N) (d) : (dat0 V c).before 5 t d = (args0 V c t).x5 :=
  ((dat0 V c).before_in_eq_fetched 5 rfl (fun _ => rfl) (fun _ _ _ => rfl) (fun _ => rfl) t d).trans rfl
theorem before0_6 (c : Dev nD) (t : Fin cfg0.N) (d) : (dat0 V c).before 6 t d = (args0 V c t).x6 :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (args0 V c t).a0 fullShare ((dat0 V c).before 0 t d))
    ∗ (∃ d, owns (c : Thread nD τ) (args0 V c t).a1 fullShare ((dat0 V c).before 1 t d))
    ∗ (∃ d, owns (c : Thread nD τ) (args0 V c t).a2 fullShare ((dat0 V c).before 2 t d))
    ∗ (∃ d, owns (c : Thread nD τ) (args0 V c t).a3 fullShare ((dat0 V c).before 3 t d))
    ∗ (∃ d, owns (c : Thread nD τ) (args0 V c t).a4 fullShare ((dat0 V c).before 4 t d))
    ∗ (∃ d, owns (c : Thread nD τ) (args0 V c t).a5 fullShare ((dat0 V c).before 5 t d))
    ∗ (∃ d, owns (c : Thread nD τ) (args0 V c t).a6 fullShare ((dat0 V c).before 6 t d))
    ∗ (∃ d, owns (c : Thread nD τ) (args0 V c t).a7 fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    show (dat0 V c).Φ t.succ = accInv0 c (owns (c : Thread nD τ) acc0 fullShare (outsAt0 V c t.val t.isLt).2) from rfl,
    show (dat0 V c).Φ t.castSucc = PhiS0 V c t.val (Nat.le_of_lt t.isLt) from rfl]
  rw [show (dat0 V c).leavesExact 0 t = owns (c : Thread nD τ) (args0 V c t).a0 fullShare (args0 V c t).x0 from by
    unfold Dat.leavesExact; rw [live0_0 t]; rfl]
  rw [show (dat0 V c).leavesExact 1 t = owns (c : Thread nD τ) (args0 V c t).a1 fullShare (args0 V c t).x1 from by
    unfold Dat.leavesExact; rw [live0_1 t]; rfl]
  rw [show (dat0 V c).leavesExact 2 t = owns (c : Thread nD τ) (args0 V c t).a2 fullShare (args0 V c t).x2 from by
    unfold Dat.leavesExact; rw [live0_2 t]; rfl]
  rw [show (dat0 V c).leavesExact 3 t = owns (c : Thread nD τ) (args0 V c t).a3 fullShare (args0 V c t).x3 from by
    unfold Dat.leavesExact; rw [live0_3 t]; rfl]
  rw [show (dat0 V c).leavesExact 4 t = owns (c : Thread nD τ) (args0 V c t).a4 fullShare (args0 V c t).x4 from by
    unfold Dat.leavesExact; rw [live0_4 t]; rfl]
  rw [show (dat0 V c).leavesExact 5 t = owns (c : Thread nD τ) (args0 V c t).a5 fullShare (args0 V c t).x5 from by
    unfold Dat.leavesExact; rw [live0_5 t]; rfl]
  rw [show (dat0 V c).leavesExact 6 t = owns (c : Thread nD τ) (args0 V c t).a6 fullShare (args0 V c t).x6 from by
    unfold Dat.leavesExact; rw [live0_6 t]; rfl]
  by_cases hf : first0 (grid0.coords t)
  · have hl := not_last0 hf
    rw [Dat.leavesExact_idle (dat0 V c) 7 t (idle0_7 t hl) (noFlush0_7 t hl), outsAt0_A V c t hf]
    unfold sout0_A; dsimp only
    refine (sep_mono_left (PhiS0_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args0 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A (args0 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS0_pos V c _ _ (pos_of_not_first0 hf)]
    by_cases hl : last0 (grid0.coords t)
    · rw [show (dat0 V c).leavesExact 7 t = owns (c : Thread nD τ) (args0 V c t).a7 fullShare ((dat0 V c).after 7 t) from by
        unfold Dat.leavesExact; rw [live0_7 t hl], after0_7, outsAt0_C V c t hf hl]
      unfold out0_C sout0_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args0 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C (args0 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C (args0 V c t) c hf hl _)
    · rw [Dat.leavesExact_idle (dat0 V c) 7 t (idle0_7 t hl) (noFlush0_7 t hl), outsAt0_B V c t hf hl]
      unfold sout0_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args0 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B (args0 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

/-- After the last point the accumulator's contents are forgotten. -/
theorem hout0 (c : Dev nD) : (dat0 V c).Φ (Fin.last cfg0.N) ⊢ Pipeline.ΦA spec0 c := by
  rw [PhiA0_eq]; exact PhiS0_forget V c cfg0.N (Nat.le_refl _)

end Layer

end Cert.KernelIdeal.Gen

end
-- ==== Proof.KI.Conds1.lean ====
import proofs.«141190_j33311766347902_1_alg».proof.Proof.Gen.KernelIdeal.Launch
import proofs.«141190_j33311766347902_1_alg».proof.Proof.Gen.KernelIdeal.Skeleton
import proofs.«141190_j33311766347902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first1 (i : grid1.Coords) : Prop := (Scalar.cmpi .ne (Scalar.extui (Scalar.cmpi .eq (BitVec.ofNat 32 (i 2).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)

abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel

theorem idle1_7 : ∀ t : Fin cfg1.N, ¬last1 (grid1.coords t) → cfg1.idle 7 (grid1.coords t) = true := by decide +kernel
theorem noFlush1_7 : ∀ t : Fin cfg1.N, ¬last1 (grid1.coords t) → (cfg1.win 7).flush t = false := by decide +kernel
theorem live1_7 : ∀ t : Fin cfg1.N, last1 (grid1.coords t) → cfg1.idle 7 (grid1.coords t) = false := by decide +kernel

abbrev acc1 : Memref sig .tc .vmem S1024x1024 .f32 := Memref.whole cc1_scratch0
abbrev accV1 : View sig .tc .vmem S1024x1024 .f32 := acc1.view
abbrev outV1 : View sig .tc .vmem S1024x1024 .bf16 := (Memref.whole cc1_stg7_0 : Memref sig .tc .vmem S1024x1024 .bf16).view

theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [acc1, owns_whole]; try rfl

end Cert.KernelIdeal.Gen

end
-- ==== Proof.KI.Run1.lean ====
import proofs.«141190_j33311766347902_1_alg».proof.Proof.KI.Conds1
import proofs.«141190_j33311766347902_1_alg».proof.Proof.KI.Owns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
  (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)

set_option maxHeartbeats 4000000 in
/-- A first step of the contraction: the accumulator, whatever it held, is zeroed and takes the step's product. -/
noncomputable def kernelRun1_A (hc0 : first1 i) (hc1 : ¬last1 i) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun1_B (hc0 : ¬first1 i) (hc1 : ¬last1 i) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun1_C (hc0 : ¬first1 i) (hc1 : last1 i) (xs : Vec F S1024x1024 .f32) :
    Σ' (L7 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc1__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc1__mlp_layer_kernel_eq_skeleton]; unfold cc1__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.KernelIdeal.Gen

end
-- ==== Proof.KI.Data1.lean ====
import proofs.«141190_j33311766347902_1_alg».proof.Proof.KI.Run1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args1 (F : FTy → Type) where
  i : grid1.Coords
  a0 : Memref sig .tc .vmem S1024x512 .bf16
  h0 : a0.IsWhole
  a1 : Memref sig .tc .vmem S1024x512 .f32
  h1 : a1.IsWhole
  a2 : Memref sig .tc .vmem S1x1024 .f32
  h2 : a2.IsWhole
  a3 : Memref sig .tc .vmem S1x1024 .f32
  h3 : a3.IsWhole
  a4 : Memref sig .tc .vmem S1x1024 .f32
  h4 : a4.IsWhole
  a5 : Memref sig .tc .vmem S1x1024 .f32
  h5 : a5.IsWhole
  a6 : Memref sig .tc .vmem S1x1024 .f32
  h6 : a6.IsWhole
  a7 : Memref sig .tc .vmem S1024x1024 .bf16
  h7 : a7.IsWhole
  acc : Memref sig .tc .vmem S1024x1024 .f32
  hacc : acc.IsWhole
  x0 : Vec F S1024x512 .bf16
  x1 : Vec F S1024x512 .f32
  x2 : Vec F S1x1024 .f32
  x3 : Vec F S1x1024 .f32
  x4 : Vec F S1x1024 .f32
  x5 : Vec F S1x1024 .f32
  x6 : Vec F S1x1024 .f32

namespace Args1
variable (a : Args1 F) (c : Dev nD)

/-- The run at a first, a middle and a last step of the contraction (the last two over the accumulator's contents). -/
abbrev runA (hf : first1 a.i) (hl : ¬last1 a.i) :=
  kernelRun1_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first1 a.i) (hl : ¬last1 a.i) (xs : Vec F S1024x1024 .f32) :=
  kernelRun1_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first1 a.i) (hl : last1 a.i) (xs : Vec F S1024x1024 .f32) :=
  kernelRun1_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args1

section Pieces
variable (a : Args1 F) (c : Dev nD)

theorem scover1_A (hf : first1 a.i) (hl : ¬last1 a.i) (y : S1024x1024.Idx) : ∃ pc ∈ (a.runA c hf hl).1, y ∈ pc.1.set :=
  View.cover_of_tiledL _ S1024x1024.size (by sl_kernel_rfl) y
/-- The accumulator after a run: the pieces it stored, read back. -/
def sout1_A (hf : first1 a.i) (hl : ¬last1 a.i) : Vec F S1024x1024 .f32 :=
  accV1.read (Elt F) (accV1.writes (Elt F) accV1.junk (a.runA c hf hl).1)
theorem scover1_B (hf : ¬first1 a.i) (hl : ¬last1 a.i) (xs : Vec F S1024x1024 .f32) (y : S1024x1024.Idx) : ∃ pc ∈ (a.runB c hf hl xs).1, y ∈ pc.1.set :=
  View.cover_of_tiledL _ S1024x1024.size (by sl_kernel_rfl) y
def sout1_B (hf : ¬first1 a.i) (hl : ¬last1 a.i) (xs : Vec F S1024x1024 .f32) : Vec F S1024x1024 .f32 :=
  accV1.read (Elt F) (accV1.writes (Elt F) accV1.junk (a.runB c hf hl xs).1)
theorem scover1_C (hf : ¬first1 a.i) (hl : last1 a.i) (xs : Vec F S1024x1024 .f32) (y : S1024x1024.Idx) : ∃ pc ∈ (a.runC c hf hl xs).2.1, y ∈ pc.1.set :=
  View.cover_of_tiledL _ S1024x1024.size (by sl_kernel_rfl) y
def sout1_C (hf : ¬first1 a.i) (hl : last1 a.i) (xs : Vec F S1024x1024 .f32) : Vec F S1024x1024 .f32 :=
  accV1.read (Elt F) (accV1.writes (Elt F) accV1.junk (a.runC c hf hl xs).2.1)
theorem cover1_C (hf : ¬first1 a.i) (hl : last1 a.i) (xs : Vec F S1024x1024 .f32) (y : S1024x1024.Idx) : ∃ pc ∈ (a.runC c hf hl xs).1, y ∈ pc.1.set :=
  View.cover_of_tiledL _ S1024x1024.size (by sl_kernel_rfl) y
/-- The output tile a last step stores. -/
def out1_C (hf : ¬first1 a.i) (hl : last1 a.i) (xs : Vec F S1024x1024 .f32) : Vec F S1024x1024 .bf16 :=
  outV1.read (Elt F) (outV1.writes (Elt F) outV1.junk (a.runC c hf hl xs).1)
/-- Off the last step the body stores nothing into the output's buffer: a placeholder nothing consults. -/
def out1_idle : Vec F S1024x1024 .bf16 := outV1.read (Elt F) outV1.junk

end Pieces

theorem not_last1 {t : Fin cfg1.N} (hf : first1 (grid1.coords t)) : ¬last1 (grid1.coords t) := fun hl => by
  have := (hfirst1 t).mp hf; have := (hlast1 t).mp hl; omega
theorem pos_of_not_first1 {t : Fin cfg1.N} (hf : ¬first1 (grid1.coords t)) : t.val ≠ 0 := fun e =>
  hf ((hfirst1 t).mpr (by rw [e]))

section Layer
variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's operands at point `t`: each window's buffer, the accumulator, and the input blocks read off the arrays. -/
abbrev args1 (c : Dev nD) (t : Fin cfg1.N) : Args1 F :=
  ⟨grid1.coords t, win1_0.stage (cfg1.slots t 0), hstage1_0 ((cfg1.slots t 0).cast nbuf1_0),
    win1_1.stage (cfg1.slots t 1), hstage1_1 ((cfg1.slots t 1).cast nbuf1_1),
    win1_2.stage (cfg1.slots t 2), hstage1_2 ((cfg1.slots t 2).cast nbuf1_2),
    win1_3.stage (cfg1.slots t 3), hstage1_3 ((cfg1.slots t 3).cast nbuf1_3),
    win1_4.stage (cfg1.slots t 4), hstage1_4 ((cfg1.slots t 4).cast nbuf1_4),
    win1_5.stage (cfg1.slots t 5), hstage1_5 ((cfg1.slots t 5).cast nbuf1_5),
    win1_6.stage (cfg1.slots t 6), hstage1_6 ((cfg1.slots t 6).cast nbuf1_6),
    win1_7.stage (cfg1.slots t 7), hstage1_7 ((cfg1.slots t 7).cast nbuf1_7), acc1, Memref.isWhole_whole _,
    iblk1 V c 0 t, iblk1 V c 1 t, iblk1 V c 2 t, iblk1 V c 3 t, iblk1 V c 4 t, iblk1 V c 5 t, iblk1 V c 6 t⟩

/-- The output's buffer and the accumulator after point `n`: reset at a first step, accumulated at the others, the tile stored at a last. -/
def outsAt1 (c : Dev nD) : (n : ℕ) → n < cfg1.N → Vec F S1024x1024 .bf16 × Vec F S1024x1024 .f32
  | 0, hn => (out1_idle, sout1_A (args1 V c ⟨0, hn⟩) c ((hfirst1 ⟨0, hn⟩).mpr (Nat.zero_mod _)) (not_last1 ((hfirst1 ⟨0, hn⟩).mpr (Nat.zero_mod _))))
  | n + 1, hn =>
    if hf : first1 (grid1.coords ⟨n + 1, hn⟩) then (out1_idle, sout1_A (args1 V c ⟨n + 1, hn⟩) c hf (not_last1 hf))
    else if hl : last1 (grid1.coords ⟨n + 1, hn⟩) then
      (out1_C (args1 V c ⟨n + 1, hn⟩) c hf hl (outsAt1 c n (Nat.lt_of_succ_lt hn)).2,
        sout1_C (args1 V c ⟨n + 1, hn⟩) c hf hl (outsAt1 c n (Nat.lt_of_succ_lt hn)).2)
    else (out1_idle, sout1_B (args1 V c ⟨n + 1, hn⟩) c hf hl (outsAt1 c n (Nat.lt_of_succ_lt hn)).2)

/-- What the point before `t` left in the accumulator. -/
abbrev prev1 (c : Dev nD) (t : Fin cfg1.N) : Vec F S1024x1024 .f32 :=
  (outsAt1 V c (t.val - 1) (Nat.lt_of_le_of_lt (Nat.sub_le _ _) t.isLt)).2

theorem outsAt1_A (c : Dev nD) (t : Fin cfg1.N) (hf : first1 (grid1.coords t)) :
    outsAt1 V c t.val t.isLt = (out1_idle, sout1_A (args1 V c t) c hf (not_last1 hf)) := by
  obtain ⟨_ | n, hn⟩ := t
  · rfl
  · exact dif_pos hf
theorem outsAt1_B (c : Dev nD) (t : Fin cfg1.N) (hf : ¬first1 (grid1.coords t)) (hl : ¬last1 (grid1.coords t)) :
    outsAt1 V c t.val t.isLt = (out1_idle, sout1_B (args1 V c t) c hf hl (prev1 V c t)) := by
  obtain ⟨_ | n, hn⟩ := t
  · exact absurd rfl (pos_of_not_first1 hf)
  · exact (dif_neg hf).trans (dif_neg hl)
theorem outsAt1_C (c : Dev nD) (t : Fin cfg1.N) (hf : ¬first1 (grid1.coords t)) (hl : last1 (grid1.coords t)) :
    outsAt1 V c t.val t.isLt = (out1_C (args1 V c t) c hf hl (prev1 V c t), sout1_C (args1 V c t) c hf hl (prev1 V c t)) := by
  obtain ⟨_ | n, hn⟩ := t
  · exact absurd rfl (pos_of_not_first1 hf)
  · exact (dif_neg hf).trans (dif_pos hl)

/-- The region's invariant between points, with what is said of the accumulator singled out. -/
abbrev accInv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

/-- Before the first point the accumulator holds anything; afterwards what the point before left. -/
def PhiS1 (c : Dev nD) : (n : ℕ) → n ≤ cfg1.N → sProp 𝕄
  | 0, _ => Pipeline.ΦA spec1 c
  | n + 1, hn => accInv1 c (owns (c : Thread nD τ) acc1 fullShare ((outsAt1 V c n hn).2))

theorem PhiS1_pos (c : Dev nD) (n : ℕ) (h : n ≤ cfg1.N) (hz : n ≠ 0) :
    PhiS1 V c n h = accInv1 c (owns (c : Thread nD τ) acc1 fullShare ((outsAt1 V c (n - 1) (by omega)).2)) := by
  cases n with
  | zero => exact absurd rfl hz
  | succ n => rfl
/-- At every point the invariant owns the accumulator at some contents. -/
theorem PhiS1_forget (c : Dev nD) (n : ℕ) (h : n ≤ cfg1.N) : PhiS1 V c n h ⊢ accInv1 c iprop(∃ d, owns (c : Thread nD τ) acc1 fullShare d) := by
  cases n with
  | zero => rw [show PhiS1 V c 0 h = Pipeline.ΦA spec1 c from rfl, PhiA1_eq]
  | succ n => exact sep_mono_left (sep_mono_left (exists_intro (Φ := fun d => owns (c : Thread nD τ) acc1 fullShare d) _))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem after1_7 (c : Dev nD) (t : Fin cfg1.N) : (dat1 V c).after 7 t = (outsAt1 V c t.val t.isLt).1 := rfl

/-- An input window's buffer holds its block of the array at every point. -/
theorem before1_0 (c : Dev nD) (t : Fin cfg1.N) (d) : (dat1 V c).before 0 t d = (args1 V c t).x0 :=
  ((dat1 V c).before_in_eq_fetched 0 rfl (fun _ => rfl) (fun _ _ _ => rfl) (fun _ => rfl) t d).trans rfl
theorem before1_1 (c : Dev nD) (t : Fin cfg1.N) (d) : (dat1 V c).before 1 t d = (args1 V c t).x1 :=
  ((dat1 V c).before_in_eq_fetched 1 rfl (fun _ => rfl) (fun _ _ _ => rfl) (fun _ => rfl) t d).trans rfl
theorem before1_2 (c : Dev nD) (t : Fin cfg1.N) (d) : (dat1 V c).before 2 t d = (args1 V c t).x2 :=
  ((dat1 V c).before_in_eq_fetched 2 rfl (fun _ => rfl) (fun _ _ _ => rfl) (fun _ => rfl) t d).trans rfl
theorem before1_3 (c : Dev nD) (t : Fin cfg1.N) (d) : (dat1 V c).before 3 t d = (args1 V c t).x3 :=
  ((dat1 V c).before_in_eq_fetched 3 rfl (fun _ => rfl) (fun _ _ _ => rfl) (fun _ => rfl) t d).trans rfl
theorem before1_4 (c : Dev nD) (t : Fin cfg1.N) (d) : (dat1 V c).before 4 t d = (args1 V c t).x4 :=
  ((dat1 V c).before_in_eq_fetched 4 rfl (fun _ => rfl) (fun _ _ _ => rfl) (fun _ => rfl) t d).trans rfl
theorem before1_5 (c : Dev nD) (t : Fin cfg1.N) (d) : (dat1 V c).before 5 t d = (args1 V c t).x5 :=
  ((dat1 V c).before_in_eq_fetched 5 rfl (fun _ => rfl) (fun _ _ _ => rfl) (fun _ => rfl) t d).trans rfl
theorem before1_6 (c : Dev nD) (t : Fin cfg1.N) (d) : (dat1 V c).before 6 t d = (args1 V c t).x6 :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (args1 V c t).a0 fullShare ((dat1 V c).before 0 t d))
    ∗ (∃ d, owns (c : Thread nD τ) (args1 V c t).a1 fullShare ((dat1 V c).before 1 t d))
    ∗ (∃ d, owns (c : Thread nD τ) (args1 V c t).a2 fullShare ((dat1 V c).before 2 t d))
    ∗ (∃ d, owns (c : Thread nD τ) (args1 V c t).a3 fullShare ((dat1 V c).before 3 t d))
    ∗ (∃ d, owns (c : Thread nD τ) (args1 V c t).a4 fullShare ((dat1 V c).before 4 t d))
    ∗ (∃ d, owns (c : Thread nD τ) (args1 V c t).a5 fullShare ((dat1 V c).before 5 t d))
    ∗ (∃ d, owns (c : Thread nD τ) (args1 V c t).a6 fullShare ((dat1 V c).before 6 t d))
    ∗ (∃ d, owns (c : Thread nD τ) (args1 V c t).a7 fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = accInv1 c (owns (c : Thread nD τ) acc1 fullShare (outsAt1 V c t.val t.isLt).2) from rfl,
    show (dat1 V c).Φ t.castSucc = PhiS1 V c t.val (Nat.le_of_lt t.isLt) from rfl]
  rw [show (dat1 V c).leavesExact 0 t = owns (c : Thread nD τ) (args1 V c t).a0 fullShare (args1 V c t).x0 from by
    unfold Dat.leavesExact; rw [live1_0 t]; rfl]
  rw [show (dat1 V c).leavesExact 1 t = owns (c : Thread nD τ) (args1 V c t).a1 fullShare (args1 V c t).x1 from by
    unfold Dat.leavesExact; rw [live1_1 t]; rfl]
  rw [show (dat1 V c).leavesExact 2 t = owns (c : Thread nD τ) (args1 V c t).a2 fullShare (args1 V c t).x2 from by
    unfold Dat.leavesExact; rw [live1_2 t]; rfl]
  rw [show (dat1 V c).leavesExact 3 t = owns (c : Thread nD τ) (args1 V c t).a3 fullShare (args1 V c t).x3 from by
    unfold Dat.leavesExact; rw [live1_3 t]; rfl]
  rw [show (dat1 V c).leavesExact 4 t = owns (c : Thread nD τ) (args1 V c t).a4 fullShare (args1 V c t).x4 from by
    unfold Dat.leavesExact; rw [live1_4 t]; rfl]
  rw [show (dat1 V c).leavesExact 5 t = owns (c : Thread nD τ) (args1 V c t).a5 fullShare (args1 V c t).x5 from by
    unfold Dat.leavesExact; rw [live1_5 t]; rfl]
  rw [show (dat1 V c).leavesExact 6 t = owns (c : Thread nD τ) (args1 V c t).a6 fullShare (args1 V c t).x6 from by
    unfold Dat.leavesExact; rw [live1_6 t]; rfl]
  by_cases hf : first1 (grid1.coords t)
  · have hl := not_last1 hf
    rw [Dat.leavesExact_idle (dat1 V c) 7 t (idle1_7 t hl) (noFlush1_7 t hl), outsAt1_A V c t hf]
    unfold sout1_A; dsimp only
    refine (sep_mono_left (PhiS1_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args1 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A (args1 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS1_pos V c _ _ (pos_of_not_first1 hf)]
    by_cases hl : last1 (grid1.coords t)
    · rw [show (dat1 V c).leavesExact 7 t = owns (c : Thread nD τ) (args1 V c t).a7 fullShare ((dat1 V c).after 7 t) from by
        unfold Dat.leavesExact; rw [live1_7 t hl], after1_7, outsAt1_C V c t hf hl]
      unfold out1_C sout1_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args1 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C (args1 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C (args1 V c t) c hf hl _)
    · rw [Dat.leavesExact_idle (dat1 V c) 7 t (idle1_7 t hl) (noFlush1_7 t hl), outsAt1_B V c t hf hl]
      unfold sout1_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args1 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B (args1 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

/-- After the last point the accumulator's contents are forgotten. -/
theorem hout1 (c : Dev nD) : (dat1 V c).Φ (Fin.last cfg1.N) ⊢ Pipeline.ΦA spec1 c := by
  rw [PhiA1_eq]; exact PhiS1_forget V c cfg1.N (Nat.le_refl _)

end Layer

end Cert.KernelIdeal.Gen

end
-- ==== Proof.KI.Conds2.lean ====
import proofs.«141190_j33311766347902_1_alg».proof.Proof.Gen.KernelIdeal.Launch
import proofs.«141190_j33311766347902_1_alg».proof.Proof.Gen.KernelIdeal.Skeleton
import proofs.«141190_j33311766347902_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first2 (i : grid2.Coords) : Prop := (Scalar.cmpi .ne (Scalar.extui (Scalar.cmpi .eq (BitVec.ofNat 32 (i 2).val) 0#32)) 0#32) = 1#1
theorem hfirst2 : ∀ t : Fin cfg2.N, first2 (grid2.coords t) ↔ t.val % 8 = 0 :=
  (by decide +kernel : ∀ t : Fin grid2.N, first2 (grid2.coords t) ↔ t.val % 8 = 0)

abbrev last2 (i : grid2.Coords) : Prop := k2_cond2 i = 1#1
theorem hlast2 : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel

theorem idle2_7 : ∀ t : Fin cfg2.N, ¬last2 (grid2.coords t) → cfg2.idle 7 (grid2.coords t) = true := by decide +kernel
theorem noFlush2_7 : ∀ t : Fin cfg2.N, ¬last2 (grid2.coords t) → (cfg2.win 7).flush t = false := by decide +kernel
theorem live2_7 : ∀ t : Fin cfg2.N, last2 (grid2.coords t) → cfg2.idle 7 (grid2.coords t) = false := by decide +kernel

abbrev acc2 : Memref sig .tc .vmem S1024x1000 .f32 := Memref.whole cc2_scratch0
abbrev accV2 : View sig .tc .vmem S1024x1000 .f32 := acc2.view
abbrev outV2 : View sig .tc .vmem S1024x1000 .f32 := (Memref.whole cc2_stg7_0 : Memref sig .tc .vmem S1024x1000 .f32).view

theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2, owns_whole]; try rfl

end Cert.KernelIdeal.Gen

end
-- ==== Proof.KI.Run2.lean ====
import proofs.«141190_j33311766347902_1_alg».proof.Proof.KI.Conds2
import proofs.«141190_j33311766347902_1_alg».proof.Proof.KI.Owns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg3 : Memref sig .tc .vmem S1024x512 .bf16) (harg3 : arg3.IsWhole) (arg4 : Memref sig .tc .vmem S1000x512 .f32) (harg4 : arg4.IsWhole) (arg5 : Memref sig .tc .vmem S1x1000 .f32) (harg5 : arg5.IsWhole) (arg6 : Memref sig .tc .vmem S1x1000 .f32) (harg6 : arg6.IsWhole) (arg7 : Memref sig .tc .vmem S1x1000 .f32) (harg7 : arg7.IsWhole) (arg8 : Memref sig .tc .vmem S1x1000 .f32) (harg8 : arg8.IsWhole) (arg9 : Memref sig .tc .vmem S1x1000 .f32) (harg9 : arg9.IsWhole) (arg10 : Memref sig .tc .vmem S1024x1000 .f32) (harg10 : arg10.IsWhole) (arg11 : Memref sig .tc .vmem S1024x1000 .f32) (harg11 : arg11.IsWhole)
  (x0 : Vec F S1024x512 .bf16) (x1 : Vec F S1000x512 .f32) (x2 : Vec F S1x1000 .f32) (x3 : Vec F S1x1000 .f32) (x4 : Vec F S1x1000 .f32) (x5 : Vec F S1x1000 .f32) (x6 : Vec F S1x1000 .f32)

set_option maxHeartbeats 4000000 in
/-- A first step of the contraction: the accumulator, whatever it held, is zeroed and takes the step's product. -/
noncomputable def kernelRun2_A (hc0 : first2 i) (hc1 : ¬last2 i) :
    { LS : List (View.Piece (Elt F) S1024x1000 .f32) //
      ∀ (xi : Vec F S1024x1000 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10]
    unfold owns
    iintro ⟨H0, H1, H2, H3, H4, H5, H6, H7, ⟨%ds, %fs, -, HS⟩, Hk⟩
    sl_exec (disch := first | exact hc0 | exact hc1)
    sl_step
    iapply Hk
    iframe H0 H1 H2 H3 H4 H5 H6 H7
    iexists _; iexact HS

set_option maxHeartbeats 4000000 in
/-- A middle step: the accumulator takes the step's product onto its contents. -/
noncomputable def kernelRun2_B (hc0 : ¬first2 i) (hc1 : ¬last2 i) (xs : Vec F S1024x1000 .f32) :
    { LS : List (View.Piece (Elt F) S1024x1000 .f32) //
      ∀ (xi : Vec F S1024x1000 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, fun xi E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg10 harg10, owns_unread c arg11 harg11]
    iintro ⟨H0, H1, H2, H3, H4, H5, H6, H7, HS, Hk⟩
    sl_exec (disch := first | exact hc0 | exact hc1)
    sl_step
    iapply Hk
    iframe H0 H1 H2 H3 H4 H5 H6 H7
    iexists _; iexact HS

set_option maxHeartbeats 4000000 in
/-- A last step: the accumulator is completed and the output tile is stored from it. -/
noncomputable def kernelRun2_C (hc0 : ¬first2 i) (hc1 : last2 i) (xs : Vec F S1024x1000 .f32) :
    Σ' (L7 : List (View.Piece (Elt F) S1024x1000 .f32)), { LS : List (View.Piece (Elt F) S1024x1000 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc2__mlp_layer_kernel i arg3 harg3 arg4 harg4 arg5 harg5 arg6 harg6 arg7 harg7 arg8 harg8 arg9 harg9 arg10 harg10 arg11 harg11) K } := by
  refine ⟨?_, ?_, fun E K => ?run⟩
  case run =>
    simp only [cc2__mlp_layer_kernel_eq_skeleton]; unfold cc2__mlp_layer_kernel_skel
    rw [owns_unread c arg3 harg3, owns_unread c arg4 harg4, owns_unread c arg5 harg5, owns_unread c arg6 harg6, owns_unread c arg7 harg7, owns_unread c arg8 harg8, owns_unread c arg9 harg9, owns_unread c arg11 harg11]
    unfold owns
    iintro ⟨H0, H1, H2, H3, H4, H5, H6, ⟨%d7, %f7, -, H7⟩, HS, Hk⟩
    sl_exec (disch := first | exact hc0 | exact hc1)
    sl_step
    iapply Hk
    iframe H0 H1 H2 H3 H4 H5 H6
    isplitl [H7]; · iexists _; iexact H7
    iexists _; iexact HS

end Cert.KernelIdeal.Gen

end
-- ==== Proof.KI.Data2.lean ====
import proofs.«141190_j33311766347902_1_alg».proof.Proof.KI.Run2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One run of the body: its grid coordinates, the eight windows' buffers and the accumulator, and the seven input blocks. -/
structure Args2 (F : FTy → Type) where
  i : grid2.Coords
  a0 : Memref sig .tc .vmem S1024x512 .bf16
  h0 : a0.IsWhole
  a1 : Memref sig .tc .vmem S1000x512 .f32
  h1 : a1.IsWhole
  a2 : Memref sig .tc .vmem S1x1000 .f32
  h2 : a2.IsWhole
  a3 : Memref sig .tc .vmem S1x1000 .f32
  h3 : a3.IsWhole
  a4 : Memref sig .tc .vmem S1x1000 .f32
  h4 : a4.IsWhole
  a5 : Memref sig .tc .vmem S1x1000 .f32
  h5 : a5.IsWhole
  a6 : Memref sig .tc .vmem S1x1000 .f32
  h6 : a6.IsWhole
  a7 : Memref sig .tc .vmem S1024x1000 .f32
  h7 : a7.IsWhole
  acc : Memref sig .tc .vmem S1024x1000 .f32
  hacc : acc.IsWhole
  x0 : Vec F S1024x512 .bf16
  x1 : Vec F S1000x512 .f32
  x2 : Vec F S1x1000 .f32
  x3 : Vec F S1x1000 .f32
  x4 : Vec F S1x1000 .f32
  x5 : Vec F S1x1000 .f32
  x6 : Vec F S1x1000 .f32

namespace Args2
variable (a : Args2 F) (c : Dev nD)

/-- The run at a first, a middle and a last step of the contraction (the last two over the accumulator's contents). -/
abbrev runA (hf : first2 a.i) (hl : ¬last2 a.i) :=
  kernelRun2_A c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl
abbrev runB (hf : ¬first2 a.i) (hl : ¬last2 a.i) (xs : Vec F S1024x1000 .f32) :=
  kernelRun2_B c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs
abbrev runC (hf : ¬first2 a.i) (hl : last2 a.i) (xs : Vec F S1024x1000 .f32) :=
  kernelRun2_C c a.i a.a0 a.h0 a.a1 a.h1 a.a2 a.h2 a.a3 a.h3 a.a4 a.h4 a.a5 a.h5 a.a6 a.h6 a.a7 a.h7 a.acc a.hacc a.x0 a.x1 a.x2 a.x3 a.x4 a.x5 a.x6 hf hl xs

end Args2

section Pieces
variable (a : Args2 F) (c : Dev nD)

theorem scover2_A (hf : first2 a.i) (hl : ¬last2 a.i) (y : S1024x1000.Idx) : ∃ pc ∈ (a.runA c hf hl).1, y ∈ pc.1.set :=
  View.cover_of_tiledL _ S1024x1000.size (by sl_kernel_rfl) y
/-- The accumulator after a run: the pieces it stored, read back. -/
def sout2_A (hf : first2 a.i) (hl : ¬last2 a.i) : Vec F S1024x1000 .f32 :=
  accV2.read (Elt F) (accV2.writes (Elt F) accV2.junk (a.runA c hf hl).1)
theorem scover2_B (hf : ¬first2 a.i) (hl : ¬last2 a.i) (xs : Vec F S1024x1000 .f32) (y : S1024x1000.Idx) : ∃ pc ∈ (a.runB c hf hl xs).1, y ∈ pc.1.set :=
  View.cover_of_tiledL _ S1024x1000.size (by sl_kernel_rfl) y
def sout2_B (hf : ¬first2 a.i) (hl : ¬last2 a.i) (xs : Vec F S1024x1000 .f32) : Vec F S1024x1000 .f32 :=
  accV2.read (Elt F) (accV2.writes (Elt F) accV2.junk (a.runB c hf hl xs).1)
theorem scover2_C (hf : ¬first2 a.i) (hl : last2 a.i) (xs : Vec F S1024x1000 .f32) (y : S1024x1000.Idx) : ∃ pc ∈ (a.runC c hf hl xs).2.1, y ∈ pc.1.set :=
  View.cover_of_tiledL _ S1024x1000.size (by sl_kernel_rfl) y
def sout2_C (hf : ¬first2 a.i) (hl : last2 a.i) (xs : Vec F S1024x1000 .f32) : Vec F S1024x1000 .f32 :=
  accV2.read (Elt F) (accV2.writes (Elt F) accV2.junk (a.runC c hf hl xs).2.1)
theorem cover2_C (hf : ¬first2 a.i) (hl : last2 a.i) (xs : Vec F S1024x1000 .f32) (y : S1024x1000.Idx) : ∃ pc ∈ (a.runC c hf hl xs).1, y ∈ pc.1.set :=
  View.cover_of_tiledL _ S1024x1000.size (by sl_kernel_rfl) y
/-- The output tile a last step stores. -/
def out2_C (hf : ¬first2 a.i) (hl : last2 a.i) (xs : Vec F S1024x1000 .f32) : Vec F S1024x1000 .f32 :=
  outV2.read (Elt F) (outV2.writes (Elt F) outV2.junk (a.runC c hf hl xs).1)
/-- Off the last step the body stores nothing into the output's buffer: a placeholder nothing consults. -/
def out2_idle : Vec F S1024x1000 .f32 := outV2.read (Elt F) outV2.junk

end Pieces

theorem not_last2 {t : Fin cfg2.N} (hf : first2 (grid2.coords t)) : ¬last2 (grid2.coords t) := fun hl => by
  have := (hfirst2 t).mp hf; have := (hlast2 t).mp hl; omega
theorem pos_of_not_first2 {t : Fin cfg2.N} (hf : ¬first2 (grid2.coords t)) : t.val ≠ 0 := fun e =>
  hf ((hfirst2 t).mpr (by rw [e]))

section Layer
variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's operands at point `t`: each window's buffer, the accumulator, and the input blocks read off the arrays. -/
abbrev args2 (c : Dev nD) (t : Fin cfg2.N) : Args2 F :=
  ⟨grid2.coords t, win2_0.stage (cfg2.slots t 0), hstage2_0 ((cfg2.slots t 0).cast nbuf2_0),
    win2_1.stage (cfg2.slots t 1), hstage2_1 ((cfg2.slots t 1).cast nbuf2_1),
    win2_2.stage (cfg2.slots t 2), hstage2_2 ((cfg2.slots t 2).cast nbuf2_2),
    win2_3.stage (cfg2.slots t 3), hstage2_3 ((cfg2.slots t 3).cast nbuf2_3),
    win2_4.stage (cfg2.slots t 4), hstage2_4 ((cfg2.slots t 4).cast nbuf2_4),
    win2_5.stage (cfg2.slots t 5), hstage2_5 ((cfg2.slots t 5).cast nbuf2_5),
    win2_6.stage (cfg2.slots t 6), hstage2_6 ((cfg2.slots t 6).cast nbuf2_6),
    win2_7.stage (cfg2.slots t 7), hstage2_7 ((cfg2.slots t 7).cast nbuf2_7), acc2, Memref.isWhole_whole _,
    iblk2 V c 0 t, iblk2 V c 1 t, iblk2 V c 2 t, iblk2 V c 3 t, iblk2 V c 4 t, iblk2 V c 5 t, iblk2 V c 6 t⟩

/-- The output's buffer and the accumulator after point `n`: reset at a first step, accumulated at the others, the tile stored at a last. -/
def outsAt2 (c : Dev nD) : (n : ℕ) → n < cfg2.N → Vec F S1024x1000 .f32 × Vec F S1024x1000 .f32
  | 0, hn => (out2_idle, sout2_A (args2 V c ⟨0, hn⟩) c ((hfirst2 ⟨0, hn⟩).mpr (Nat.zero_mod _)) (not_last2 ((hfirst2 ⟨0, hn⟩).mpr (Nat.zero_mod _))))
  | n + 1, hn =>
    if hf : first2 (grid2.coords ⟨n + 1, hn⟩) then (out2_idle, sout2_A (args2 V c ⟨n + 1, hn⟩) c hf (not_last2 hf))
    else if hl : last2 (grid2.coords ⟨n + 1, hn⟩) then
      (out2_C (args2 V c ⟨n + 1, hn⟩) c hf hl (outsAt2 c n (Nat.lt_of_succ_lt hn)).2,
        sout2_C (args2 V c ⟨n + 1, hn⟩) c hf hl (outsAt2 c n (Nat.lt_of_succ_lt hn)).2)
    else (out2_idle, sout2_B (args2 V c ⟨n + 1, hn⟩) c hf hl (outsAt2 c n (Nat.lt_of_succ_lt hn)).2)

/-- What the point before `t` left in the accumulator. -/
abbrev prev2 (c : Dev nD) (t : Fin cfg2.N) : Vec F S1024x1000 .f32 :=
  (outsAt2 V c (t.val - 1) (Nat.lt_of_le_of_lt (Nat.sub_le _ _) t.isLt)).2

theorem outsAt2_A (c : Dev nD) (t : Fin cfg2.N) (hf : first2 (grid2.coords t)) :
    outsAt2 V c t.val t.isLt = (out2_idle, sout2_A (args2 V c t) c hf (not_last2 hf)) := by
  obtain ⟨_ | n, hn⟩ := t
  · rfl
  · exact dif_pos hf
theorem outsAt2_B (c : Dev nD) (t : Fin cfg2.N) (hf : ¬first2 (grid2.coords t)) (hl : ¬last2 (grid2.coords t)) :
    outsAt2 V c t.val t.isLt = (out2_idle, sout2_B (args2 V c t) c hf hl (prev2 V c t)) := by
  obtain ⟨_ | n, hn⟩ := t
  · exact absurd rfl (pos_of_not_first2 hf)
  · exact (dif_neg hf).trans (dif_neg hl)
theorem outsAt2_C (c : Dev nD) (t : Fin cfg2.N) (hf : ¬first2 (grid2.coords t)) (hl : last2 (grid2.coords t)) :
    outsAt2 V c t.val t.isLt = (out2_C (args2 V c t) c hf hl (prev2 V c t), sout2_C (args2 V c t) c hf hl (prev2 V c t)) := by
  obtain ⟨_ | n, hn⟩ := t
  · exact absurd rfl (pos_of_not_first2 hf)
  · exact (dif_neg hf).trans (dif_pos hl)

/-- The region's invariant between points, with what is said of the accumulator singled out. -/
abbrev accInv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

/-- Before the first point the accumulator holds anything; afterwards what the point before left. -/
def PhiS2 (c : Dev nD) : (n : ℕ) → n ≤ cfg2.N → sProp 𝕄
  | 0, _ => Pipeline.ΦA spec2 c
  | n + 1, hn => accInv2 c (owns (c : Thread nD τ) acc2 fullShare ((outsAt2 V c n hn).2))

theorem PhiS2_pos (c : Dev nD) (n : ℕ) (h : n ≤ cfg2.N) (hz : n ≠ 0) :
    PhiS2 V c n h = accInv2 c (owns (c : Thread nD τ) acc2 fullShare ((outsAt2 V c (n - 1) (by omega)).2)) := by
  cases n with
  | zero => exact absurd rfl hz
  | succ n => rfl
/-- At every point the invariant owns the accumulator at some contents. -/
theorem PhiS2_forget (c : Dev nD) (n : ℕ) (h : n ≤ cfg2.N) : PhiS2 V c n h ⊢ accInv2 c iprop(∃ d, owns (c : Thread nD τ) acc2 fullShare d) := by
  cases n with
  | zero => rw [show PhiS2 V c 0 h = Pipeline.ΦA spec2 c from rfl, PhiA2_eq]
  | succ n => exact sep_mono_left (sep_mono_left (exists_intro (Φ := fun d => owns (c : Thread nD τ) acc2 fullShare d) _))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem after2_7 (c : Dev nD) (t : Fin cfg2.N) : (dat2 V c).after 7 t = (outsAt2 V c t.val t.isLt).1 := rfl

/-- An input window's buffer holds its block of the array at every point. -/
theorem before2_0 (c : Dev nD) (t : Fin cfg2.N) (d) : (dat2 V c).before 0 t d = (args2 V c t).x0 :=
  ((dat2 V c).before_in_eq_fetched 0 rfl (fun _ => rfl) (fun _ _ _ => rfl) (fun _ => rfl) t d).trans rfl
theorem before2_1 (c : Dev nD) (t : Fin cfg2.N) (d) : (dat2 V c).before 1 t d = (args2 V c t).x1 :=
  ((dat2 V c).before_in_eq_fetched 1 rfl (fun _ => rfl) (fun _ _ _ => rfl) (fun _ => rfl) t d).trans rfl
theorem before2_2 (c : Dev nD) (t : Fin cfg2.N) (d) : (dat2 V c).before 2 t d = (args2 V c t).x2 :=
  ((dat2 V c).before_in_eq_fetched 2 rfl (fun _ => rfl) (fun _ _ _ => rfl) (fun _ => rfl) t d).trans rfl
theorem before2_3 (c : Dev nD) (t : Fin cfg2.N) (d) : (dat2 V c).before 3 t d = (args2 V c t).x3 :=
  ((dat2 V c).before_in_eq_fetched 3 rfl (fun _ => rfl) (fun _ _ _ => rfl) (fun _ => rfl) t d).trans rfl
theorem before2_4 (c : Dev nD) (t : Fin cfg2.N) (d) : (dat2 V c).before 4 t d = (args2 V c t).x4 :=
  ((dat2 V c).before_in_eq_fetched 4 rfl (fun _ => rfl) (fun _ _ _ => rfl) (fun _ => rfl) t d).trans rfl
theorem before2_5 (c : Dev nD) (t : Fin cfg2.N) (d) : (dat2 V c).before 5 t d = (args2 V c t).x5 :=
  ((dat2 V c).before_in_eq_fetched 5 rfl (fun _ => rfl) (fun _ _ _ => rfl) (fun _ => rfl) t d).trans rfl
theorem before2_6 (c : Dev nD) (t : Fin cfg2.N) (d) : (dat2 V c).before 6 t d = (args2 V c t).x6 :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (args2 V c t).a0 fullShare ((dat2 V c).before 0 t d))
    ∗ (∃ d, owns (c : Thread nD τ) (args2 V c t).a1 fullShare ((dat2 V c).before 1 t d))
    ∗ (∃ d, owns (c : Thread nD τ) (args2 V c t).a2 fullShare ((dat2 V c).before 2 t d))
    ∗ (∃ d, owns (c : Thread nD τ) (args2 V c t).a3 fullShare ((dat2 V c).before 3 t d))
    ∗ (∃ d, owns (c : Thread nD τ) (args2 V c t).a4 fullShare ((dat2 V c).before 4 t d))
    ∗ (∃ d, owns (c : Thread nD τ) (args2 V c t).a5 fullShare ((dat2 V c).before 5 t d))
    ∗ (∃ d, owns (c : Thread nD τ) (args2 V c t).a6 fullShare ((dat2 V c).before 6 t d))
    ∗ (∃ d, owns (c : Thread nD τ) (args2 V c t).a7 fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = accInv2 c (owns (c : Thread nD τ) acc2 fullShare (outsAt2 V c t.val t.isLt).2) from rfl,
    show (dat2 V c).Φ t.castSucc = PhiS2 V c t.val (Nat.le_of_lt t.isLt) from rfl]
  rw [show (dat2 V c).leavesExact 0 t = owns (c : Thread nD τ) (args2 V c t).a0 fullShare (args2 V c t).x0 from by
    unfold Dat.leavesExact; rw [live2_0 t]; rfl]
  rw [show (dat2 V c).leavesExact 1 t = owns (c : Thread nD τ) (args2 V c t).a1 fullShare (args2 V c t).x1 from by
    unfold Dat.leavesExact; rw [live2_1 t]; rfl]
  rw [show (dat2 V c).leavesExact 2 t = owns (c : Thread nD τ) (args2 V c t).a2 fullShare (args2 V c t).x2 from by
    unfold Dat.leavesExact; rw [live2_2 t]; rfl]
  rw [show (dat2 V c).leavesExact 3 t = owns (c : Thread nD τ) (args2 V c t).a3 fullShare (args2 V c t).x3 from by
    unfold Dat.leavesExact; rw [live2_3 t]; rfl]
  rw [show (dat2 V c).leavesExact 4 t = owns (c : Thread nD τ) (args2 V c t).a4 fullShare (args2 V c t).x4 from by
    unfold Dat.leavesExact; rw [live2_4 t]; rfl]
  rw [show (dat2 V c).leavesExact 5 t = owns (c : Thread nD τ) (args2 V c t).a5 fullShare (args2 V c t).x5 from by
    unfold Dat.leavesExact; rw [live2_5 t]; rfl]
  rw [show (dat2 V c).leavesExact 6 t = owns (c : Thread nD τ) (args2 V c t).a6 fullShare (args2 V c t).x6 from by
    unfold Dat.leavesExact; rw [live2_6 t]; rfl]
  by_cases hf : first2 (grid2.coords t)
  · have hl := not_last2 hf
    rw [Dat.leavesExact_idle (dat2 V c) 7 t (idle2_7 t hl) (noFlush2_7 t hl), outsAt2_A V c t hf]
    unfold sout2_A; dsimp only
    refine (sep_mono_left (PhiS2_forget V c _ _)).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (((args2 V c t).runA c hf hl).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A (args2 V c t) c hf hl)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS2_pos V c _ _ (pos_of_not_first2 hf)]
    by_cases hl : last2 (grid2.coords t)
    · rw [show (dat2 V c).leavesExact 7 t = owns (c : Thread nD τ) (args2 V c t).a7 fullShare ((dat2 V c).after 7 t) from by
        unfold Dat.leavesExact; rw [live2_7 t hl], after2_7, outsAt2_C V c t hf hl]
      unfold out2_C sout2_C; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args2 V c t).runC c hf hl _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C (args2 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover2_C (args2 V c t) c hf hl _)
    · rw [Dat.leavesExact_idle (dat2 V c) 7 t (idle2_7 t hl) (noFlush2_7 t hl), outsAt2_B V c t hf hl]
      unfold sout2_B; dsimp only
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (((args2 V c t).runB c hf hl _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B (args2 V c t) c hf hl _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's specification at every grid point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

/-- After the last point the accumulator's contents are forgotten. -/
theorem hout2 (c : Dev nD) : (dat2 V c).Φ (Fin.last cfg2.N) ⊢ Pipeline.ΦA spec2 c := by
  rw [PhiA2_eq]; exact PhiS2_forget V c cfg2.N (Nat.le_refl _)

end Layer

end Cert.KernelIdeal.Gen

end
-- ==== Proof.KI.Regions.lean ====
import proofs.«141190_j33311766347902_1_alg».proof.Proof.Gen.KernelIdeal.Regions
import proofs.«141190_j33311766347902_1_alg».proof.Proof.KI.Data0
import proofs.«141190_j33311766347902_1_alg».proof.Proof.KI.Data1
import proofs.«141190_j33311766347902_1_alg».proof.Proof.KI.Data2
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E1 (c : Dev nD) (b : Ref sig .tc) : Buf (Elt F) ((c : Thread nD τ).loc b) := V1 m c (Proc.devRef .tc b)
abbrev E1v (c : Dev nD) : Valuation τ sig (Elt F) := V1 m c

def res1 (c : Dev nD) : Buf (Elt F) ((c : Thread nD τ).loc main_v5) := (dat0 (E1 m) c).arrAt 7 cfg0.N

def U2 (c : Dev nD) : Valuation τ sig (Elt F) := Function.update (V1 m c) (Proc.devRef .tc main_v5) (res1 m c)

abbrev E3v (c : Dev nD) : Valuation τ sig (Elt F) := StableHlo.after hostOps1 (U2 m c)
abbrev E3 (c : Dev nD) (b : Ref sig .tc) : Buf (Elt F) ((c : Thread nD τ).loc b) := E3v m c (Proc.devRef .tc b)
def res2 (c : Dev nD) : Buf (Elt F) ((c : Thread nD τ).loc main_v11) := (dat1 (E3 m) c).arrAt 7 cfg1.N
def U4 (c : Dev nD) : Valuation τ sig (Elt F) := Function.update (E3v m c) (Proc.devRef .tc main_v11) (res2 m c)
abbrev E5v (c : Dev nD) : Valuation τ sig (Elt F) := StableHlo.after hostOps2 (U4 m c)
abbrev E5 (c : Dev nD) (b : Ref sig .tc) : Buf (Elt F) ((c : Thread nD τ).loc b) := E5v m c (Proc.devRef .tc b)
def res3 (c : Dev nD) : Buf (Elt F) ((c : Thread nD τ).loc main_v17) := (dat2 (E5 m) c).arrAt 7 cfg2.N
def U6 (c : Dev nD) : Valuation τ sig (Elt F) := Function.update (E5v m c) (Proc.devRef .tc main_v17) (res3 m c)

def outsOf : Outs (F := F) := fun J r c =>
  match J with
  | 2 => U2 m c (Proc.devRef .tc r)
  | 4 => U4 m c (Proc.devRef .tc r)
  | _ => U6 m c (Proc.devRef .tc r)

theorem outs2 (c : Dev nD) : outsOf m 2 main_v5 c = res1 m c := by
  show U2 m c (Proc.devRef .tc main_v5) = _; unfold U2; exact Function.update_self _ _ _
theorem outs4 (c : Dev nD) : outsOf m 4 main_v11 c = res2 m c := by
  show U4 m c (Proc.devRef .tc main_v11) = _; unfold U4; exact Function.update_self _ _ _
theorem outs6 (c : Dev nD) : outsOf m 6 main_v17 c = res3 m c := by
  show U6 m c (Proc.devRef .tc main_v17) = _; unfold U6; exact Function.update_self _ _ _
theorem V2_eq (c : Dev nD) : V2 m (outsOf m) c = U2 m c := by
  unfold V2; rw [outs2]; rfl
theorem V3_eq (c : Dev nD) : V3 m (outsOf m) c = E3v m c := by
  unfold V3; rw [V2_eq]
theorem V4_eq (c : Dev nD) : V4 m (outsOf m) c = U4 m c := by
  unfold V4; rw [outs4, V3_eq]; rfl
theorem V5_eq (c : Dev nD) : V5 m (outsOf m) c = E5v m c := by
  unfold V5; rw [V4_eq]
theorem V6_eq (c : Dev nD) : V6 m (outsOf m) c = U6 m c := by
  unfold V6; rw [outs6, V5_eq]; rfl

def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = U2 m c (Proc.devRef .tc (Pipeline.arrRef spec0 w)) := by
  have hin : ∀ w : Fin cfg0.W, (cfg0.win w).isOut = false → (pdats m 0 c).arrAt w cfg0.N = U2 m c (Proc.devRef .tc (Pipeline.arrRef spec0 w)) := fun w hw =>
    ((pdats m 0 c).arrAt_in w hw _).trans (by
      show E1 m c (Pipeline.arrRef spec0 w) = _
      unfold U2
      rw [Function.update_of_ne]
      revert hw; revert w; decide)
  match w with
  | ⟨7, _⟩ =>
    show _ = U2 m c (Proc.devRef .tc main_v5)
    unfold U2; rw [Function.update_self]; rfl
  | ⟨0, _⟩ | ⟨1, _⟩ | ⟨2, _⟩ | ⟨3, _⟩ | ⟨4, _⟩ | ⟨5, _⟩ | ⟨6, _⟩ => exact hin _ rfl
theorem hrest0 (c : Dev nD) : ∀ b, b ∉ Finset.univ.image (Pipeline.arrRef spec0) → U2 m c (Proc.devRef .tc b) = E1 m c b := by
  intro b hb
  unfold U2
  exact Function.update_of_ne (StableHlo.devRef_ne_of_ne fun e => hb (Finset.mem_image.mpr ⟨7, Finset.mem_univ _, e.symm⟩)) _ _

theorem hF1 (c : Dev nD) (w : Fin cfg1.W) : (pdats m 1 c).arrAt w cfg1.N = U4 m c (Proc.devRef .tc (Pipeline.arrRef spec1 w)) := by
  have hin : ∀ w : Fin cfg1.W, (cfg1.win w).isOut = false → (pdats m 1 c).arrAt w cfg1.N = U4 m c (Proc.devRef .tc (Pipeline.arrRef spec1 w)) := fun w hw =>
    ((pdats m 1 c).arrAt_in w hw _).trans (by
      show E3 m c (Pipeline.arrRef spec1 w) = _
      unfold U4
      rw [Function.update_of_ne]
      revert hw; revert w; decide)
  match w with
  | ⟨7, _⟩ =>
    show _ = U4 m c (Proc.devRef .tc main_v11)
    unfold U4; rw [Function.update_self]; rfl
  | ⟨0, _⟩ | ⟨1, _⟩ | ⟨2, _⟩ | ⟨3, _⟩ | ⟨4, _⟩ | ⟨5, _⟩ | ⟨6, _⟩ => exact hin _ rfl
theorem hrest1 (c : Dev nD) : ∀ b, b ∉ Finset.univ.image (Pipeline.arrRef spec1) → U4 m c (Proc.devRef .tc b) = E3 m c b := by
  intro b hb
  unfold U4
  exact Function.update_of_ne (StableHlo.devRef_ne_of_ne fun e => hb (Finset.mem_image.mpr ⟨7, Finset.mem_univ _, e.symm⟩)) _ _

theorem hF2 (c : Dev nD) (w : Fin cfg2.W) : (pdats m 2 c).arrAt w cfg2.N = U6 m c (Proc.devRef .tc (Pipeline.arrRef spec2 w)) := by
  have hin : ∀ w : Fin cfg2.W, (cfg2.win w).isOut = false → (pdats m 2 c).arrAt w cfg2.N = U6 m c (Proc.devRef .tc (Pipeline.arrRef spec2 w)) := fun w hw =>
    ((pdats m 2 c).arrAt_in w hw _).trans (by
      show E5 m c (Pipeline.arrRef spec2 w) = _
      unfold U6
      rw [Function.update_of_ne]
      revert hw; revert w; decide)
  match w with
  | ⟨7, _⟩ =>
    show _ = U6 m c (Proc.devRef .tc main_v17)
    unfold U6; rw [Function.update_self]; rfl
  | ⟨0, _⟩ | ⟨1, _⟩ | ⟨2, _⟩ | ⟨3, _⟩ | ⟨4, _⟩ | ⟨5, _⟩ | ⟨6, _⟩ => exact hin _ rfl
theorem hrest2 (c : Dev nD) : ∀ b, b ∉ Finset.univ.image (Pipeline.arrRef spec2) → U6 m c (Proc.devRef .tc b) = E5 m c b := by
  intro b hb
  unfold U6
  exact Function.update_of_ne (StableHlo.devRef_ne_of_ne fun e => hb (Finset.mem_image.mpr ⟨7, Finset.mem_univ _, e.symm⟩)) _ _

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    iintro ⟨Hp, -, Hr⟩
    iapply (hin0 (E1 m) c)
    unfold Pipeline.ΦA
    isplitl [Hr]; · iexact Hr
    iexact Hp
  hout c := by
    rw [Pipeline.ownSems0_none, show (pdats m 0 c).Φ (Fin.last _) = (dat0 (E1 m) c).Φ (Fin.last cfg0.N) from rfl]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => U2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    unfold Pipeline.ΦA
    isplitl [Hr]; · iexact Hr
    iexact Hp
  hout c := by
    rw [Pipeline.ownSems0_none, show (pdats m 1 c).Φ (Fin.last _) = (dat1 (E3 m) c).Φ (Fin.last cfg1.N) from rfl]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => U4 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (E5v m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E5 m) c).Φ 0 from rfl]
    iintro ⟨Hp, -, Hr⟩
    iapply (hin2 (E5 m) c)
    unfold Pipeline.ΦA
    isplitl [Hr]; · iexact Hr
    iexact Hp
  hout c := by
    rw [Pipeline.ownSems0_none, show (pdats m 2 c).Φ (Fin.last _) = (dat2 (E5 m) c).Φ (Fin.last cfg2.N) from rfl]
    refine (hout2 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (fun b => U6 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem held_congr (c : Dev nD) {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := by
  subst h; exact .rfl

set_option backward.isDefEq.respectTransparency.types false in

theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U6 m c b) := by
  have hR0 : ∀ c : Dev nD, (iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c) : sProp 𝕄) ⊢ R c := fun c => by
    iintro ⟨-, HO, -, Hp, -⟩
    isplitl [Hp]; · iexists _; iexact Hp
    iexists ∅; iexact HO
  refine Pipeline.θ_run_regions_kit_dev (pcfgs (F := F)) adm (pdats m) () cellOf_inj emb₁ defs₀ 𝒱₀ L lv m ρ main
    (segs m (outsOf m) 𝒱₀ L lv (fun _ => R) () (pdats m) (reg0 m) (reg1 m) (reg2 m))
    (fun c Q => by
      rewrite [main_chain c, Pipeline.Seg.run_eq_chain,
        show (segs m (outsOf m) 𝒱₀ L lv (fun _ => R) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (U6 m c))
    (hch := fun c => ⟨.rfl, .rfl, held_congr c (V2_eq m c).symm, held_congr c (V3_eq m c), held_congr c (V4_eq m c).symm, held_congr c (V5_eq m c),
      sep_mono .rfl (by iintro ⟨-, HO⟩; iexact HO)⟩)
    (hinit := ?_) (QY := fun c s => ∀ b ∈ Pipeline.ucRefs τ sig, s.mem ((c : Thread nD τ).1, b) = U6 m c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c))
        ⊢ (bigSep Finset.univ fun c : Dev nD => iprop(StableHlo.held (c : Thread nD τ) (Pipeline.ucRefs τ sig) (V0 m c) ∗ R c) : sProp 𝕄) :=
      bigSep_mono fun c _ => by
        rw [← Pipeline.unscopedBufs_held (Ix := Unit) (Name := ℕ) (U := UR sig nD τ) (Lvl := ℕ) c (V0 m c)]
        exact sep_mono .rfl (hR0 c)
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact h
    · iexact HSI

theorem U6_result (c : Dev nD) : U6 m c (Proc.devRef .tc main_v17) = res3 m c := by
  unfold U6; exact Function.update_self _ _ _

theorem U6_kept (c : Dev nD) (b : Ref sig .tc) (e : V6 m (outsOf m) c (Proc.devRef .tc b) = m ((c : Thread nD τ).loc b)) :
    U6 m c (Proc.devRef .tc b) = m ((c : Thread nD τ).loc b) := by
  rw [← V6_eq]; exact e

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every execution ends with the result array at the last layer's result and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v17) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_v17 (by decide))).trans (U6_result m c),
    (h c _ (mem_uc main_arg0 (by decide))).trans (U6_kept m c _ (V6_main_arg0 m (outsOf m) c)),
    (h c _ (mem_uc main_arg1 (by decide))).trans (U6_kept m c _ (V6_main_arg1 m (outsOf m) c)),
    (h c _ (mem_uc main_arg2 (by decide))).trans (U6_kept m c _ (V6_main_arg2 m (outsOf m) c)),
    (h c _ (mem_uc main_arg3 (by decide))).trans (U6_kept m c _ (V6_main_arg3 m (outsOf m) c)),
    (h c _ (mem_uc main_arg4 (by decide))).trans (U6_kept m c _ (V6_main_arg4 m (outsOf m) c)),
    (h c _ (mem_uc main_arg5 (by decide))).trans (U6_kept m c _ (V6_main_arg5 m (outsOf m) c)),
    (h c _ (mem_uc main_arg6 (by decide))).trans (U6_kept m c _ (V6_main_arg6 m (outsOf m) c)),
    (h c _ (mem_uc main_arg7 (by decide))).trans (U6_kept m c _ (V6_main_arg7 m (outsOf m) c)),
    (h c _ (mem_uc main_arg8 (by decide))).trans (U6_kept m c _ (V6_main_arg8 m (outsOf m) c)),
    (h c _ (mem_uc main_arg9 (by decide))).trans (U6_kept m c _ (V6_main_arg9 m (outsOf m) c)),
    (h c _ (mem_uc main_arg10 (by decide))).trans (U6_kept m c _ (V6_main_arg10 m (outsOf m) c)),
    (h c _ (mem_uc main_arg11 (by decide))).trans (U6_kept m c _ (V6_main_arg11 m (outsOf m) c)),
    (h c _ (mem_uc main_arg12 (by decide))).trans (U6_kept m c _ (V6_main_arg12 m (outsOf m) c)),
    (h c _ (mem_uc main_arg13 (by decide))).trans (U6_kept m c _ (V6_main_arg13 m (outsOf m) c)),
    (h c _ (mem_uc main_arg14 (by decide))).trans (U6_kept m c _ (V6_main_arg14 m (outsOf m) c)),
    (h c _ (mem_uc main_arg15 (by decide))).trans (U6_kept m c _ (V6_main_arg15 m (outsOf m) c)),
    (h c _ (mem_uc main_arg16 (by decide))).trans (U6_kept m c _ (V6_main_arg16 m (outsOf m) c)),
    (h c _ (mem_uc main_arg17 (by decide))).trans (U6_kept m c _ (V6_main_arg17 m (outsOf m) c)),
    (h c _ (mem_uc main_arg18 (by decide))).trans (U6_kept m c _ (V6_main_arg18 m (outsOf m) c))⟩) (run_main m ρ)

end Cert.KernelIdeal.Gen

end
-- ==== Proof.KI.Val0a.lean ====
import proofs.«141190_j33311766347902_1_alg».proof.Proof.KI.Data0
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)

variable {F : FTy → Type} [FloatOps F] (a : Args0 F) (c : Dev nD)

theorem hz0 : (![0, 0] : Fin 2 → Nat) = fun _ => 0 := funext fun j => by fin_cases j <;> rfl

/-- A first step stores the zero tile, then the step's product added onto it. -/
theorem soutA_eq (hc0 : first0 a.i) (hc1 : ¬last0 a.i) :
    sout0_A a c hc0 hc1 = k0_pay2 a.x0 a.x1 (k0_pay1 (F := F)) := by
  unfold sout0_A
  rw [View.read_writes_eq_canon _ _ _ (scover0_A a c hc0 hc1)]
  unfold Args0.runA kernelRun0_A
  dsimp only
  sl_unfold_words
  rw [View.canon_cons_unit_zero (S := S1024x1024) hz0, View.readCov_unit_zero (S := S1024x1024) _ hz0]
  simp only [View.readAt_eq_ld, a.h0.read_unread, a.h1.read_unread, View.ld_unit_zero (S := S1024x512) hz0]

/-- A middle step adds its product onto what the accumulator held. -/
theorem soutB_eq (hc0 : ¬first0 a.i) (hc1 : ¬last0 a.i) (xs : Vec F S1024x1024 .f32) :
    sout0_B a c hc0 hc1 xs = k0_pay2 a.x0 a.x1 xs := by
  unfold sout0_B
  rw [View.read_writes_eq_canon _ _ _ (scover0_B a c hc0 hc1 xs)]
  unfold Args0.runB kernelRun0_B
  dsimp only
  sl_unfold_words
  rw [View.canon_unit_zero hz0]
  simp only [View.readAt_eq_ld, a.h0.read_unread, a.h1.read_unread, a.hacc.read_unread, View.ld_unit_zero (S := S1024x512) hz0, View.ld_unit_zero (S := S1024x1024) hz0]

/-- A last step accumulates as a middle step does. -/
theorem soutC_eq (hc0 : ¬first0 a.i) (hc1 : last0 a.i) (xs : Vec F S1024x1024 .f32) :
    sout0_C a c hc0 hc1 xs = k0_pay2 a.x0 a.x1 xs := by
  unfold sout0_C
  rw [View.read_writes_eq_canon _ _ _ (scover0_C a c hc0 hc1 xs)]
  unfold Args0.runC kernelRun0_C
  dsimp only
  sl_unfold_words
  rw [View.canon_unit_zero hz0]
  simp only [View.readAt_eq_ld, a.h0.read_unread, a.h1.read_unread, a.hacc.read_unread, View.ld_unit_zero (S := S1024x512) hz0, View.ld_unit_zero (S := S1024x1024) hz0]

/-- The stored tile is the bias and normalization applied to the finished accumulator. -/
theorem outC_eq (hc0 : ¬first0 a.i) (hc1 : last0 a.i) (xs : Vec F S1024x1024 .f32) :
    out0_C a c hc0 hc1 xs = k0_pay3 (k0_pay2 a.x0 a.x1 xs) a.x2 a.x3 a.x6 a.x5 a.x4 := by
  unfold out0_C
  rw [View.read_writes_eq_canon _ _ _ (cover0_C a c hc0 hc1 xs)]
  unfold Args0.runC kernelRun0_C
  dsimp only
  sl_unfold_words
  rw [View.canon_unit_zero hz0]
  simp only [View.readAt_eq_ld, a.h0.read_unread, a.h1.read_unread, a.h2.read_unread, a.h3.read_unread, a.h4.read_unread, a.h5.read_unread, a.h6.read_unread, a.hacc.read_unread, View.readCov_unit_zero (S := S1024x1024) _ hz0, View.ld_unit_zero (S := S1024x512) hz0, View.ld_unit_zero (S := S1024x1024) hz0, View.ld_unit_zero (S := S1x1024) hz0]

end Cert.KernelIdeal.Gen

end
-- ==== Proof.Spec.lean ====
import Idealize.ShloMosaic.PureOps.Ideal
import Idealize.ShloMosaic.Lib.ValueIdx

noncomputable section

namespace Cert.Spec

open Idealize.ShloMosaic

def sg (x : EReal) : EReal :=
  Scalar.select (FloatOps.cmpf (F := Ideal) (φ := .f32) .oge x (Ideal.ofBits .f32 0x00000000#32))
    (Ideal.ofBits .f32 0x3F800000#32) (Ideal.ofBits .f32 0xBF800000#32)

def quant (x : EReal) : EReal :=
  Ideal.div (Ideal.liftRound Ideal.roundHalfEven (x * Ideal.ofBits .f32 0x43000000#32)) (Ideal.ofBits .f32 0x43000000#32)

def bn (acc b g be mu var : EReal) : EReal :=
  ((acc + b) - mu) * Ideal.div g (Ideal.sqrt (var + Ideal.ofBits .f32 0x3727C5AC#32)) + be

def layer {M K N : Nat} (h : Fin M → Fin K → EReal) (W : Fin N → Fin K → EReal) (b g be mu var : Fin N → EReal) :
    Fin M → Fin N → EReal :=
  fun r n => bn (∑ k : Fin K, sg (h r k) * sg (W n k)) (b n) (g n) (be n) (mu n) (var n)

def net (x : Fin 8192 → Fin 4096 → EReal)
    (W1 : Fin 4096 → Fin 4096 → EReal) (b1 g1 be1 m1 v1 : Fin 4096 → EReal)
    (W2 : Fin 4096 → Fin 4096 → EReal) (b2 g2 be2 m2 v2 : Fin 4096 → EReal)
    (W3 : Fin 1000 → Fin 4096 → EReal) (b3 g3 be3 m3 v3 : Fin 1000 → EReal) : Fin 8192 → Fin 1000 → EReal :=
  layer (fun r k => sg (layer (fun r k => sg (layer (fun r k => quant (x r k)) W1 b1 g1 be1 m1 v1 r k)) W2 b2 g2 be2 m2 v2 r k))
    W3 b3 g3 be3 m3 v3

end Cert.Spec

end
-- ==== Proof.SpecAlg.lean ====
import proofs.«141190_j33311766347902_1_alg».proof.Proof.Spec
import Mathlib.Algebra.BigOperators.Fin
import Mathlib.Algebra.BigOperators.Intervals
import Mathlib.Data.EReal.Inv

noncomputable section

namespace Cert.Spec

open Idealize.ShloMosaic

theorem ofBits_128 : Ideal.ofBits .f32 0x43000000#32 = ((128 : ℝ) : EReal) := by
  simp [Ideal.ofBits, Ideal.ieee, -EReal.coe_mul]; norm_num

theorem ofBits_inv128 : Ideal.ofBits .f32 0x3C000000#32 = ((1 / 128 : ℝ) : EReal) := by
  simp [Ideal.ofBits, Ideal.ieee, -EReal.coe_mul]; norm_num

theorem quant_mul (y : EReal) :
    y * Ideal.ofBits .f32 0x3C000000#32 = Ideal.div y (Ideal.ofBits .f32 0x43000000#32) := by
  rw [ofBits_128, ofBits_inv128, Ideal.div_coe (by norm_num)]

theorem sum_blocks (f : Fin 4096 → EReal) :
    (∑ k : Fin 4096, f k) = ∑ kb : Fin 8, ∑ kk : Fin 512, f ⟨kb.val * 512 + kk.val, by omega⟩ := by
  rw [← Fintype.sum_prod_type' (f := fun (kb : Fin 8) (kk : Fin 512) => f ⟨kb.val * 512 + kk.val, by omega⟩)]
  refine (Fintype.sum_equiv (finProdFinEquiv (m := 8) (n := 512)) _ _ (fun p => ?_)).symm
  refine congrArg f (Fin.ext ?_)
  show p.1.val * 512 + p.2.val = p.2.val + 512 * p.1.val
  omega

def prefixSum (f : Fin 4096 → EReal) (j : Nat) : EReal :=
  ∑ kb ∈ Finset.range j, ∑ kk : Fin 512, if h : kb < 8 then f ⟨kb * 512 + kk.val, by omega⟩ else 0

theorem prefixSum_zero (f : Fin 4096 → EReal) : prefixSum f 0 = 0 := by
  simp [prefixSum]

theorem prefixSum_succ (f : Fin 4096 → EReal) (j : Nat) (hj : j < 8) :
    prefixSum f (j + 1) = prefixSum f j + ∑ kk : Fin 512, f ⟨j * 512 + kk.val, by omega⟩ := by
  unfold prefixSum
  rw [Finset.sum_range_succ]
  simp only [dif_pos hj]

theorem sum_blocks_prefix (f : Fin 4096 → EReal) (j : Nat) (hj : j ≤ 8) :
    prefixSum f j =
      ∑ kb : Fin 8, if kb.val < j then ∑ kk : Fin 512, f ⟨kb.val * 512 + kk.val, by omega⟩ else 0 := by
  induction j with
  | zero => simp [prefixSum_zero]
  | succ j ih =>
    have hj' : j < 8 := hj
    rw [prefixSum_succ f j hj', ih (Nat.le_of_lt hj')]
    rw [← Finset.sum_erase_add _ _ (Finset.mem_univ (⟨j, hj'⟩ : Fin 8)),
      ← Finset.sum_erase_add (a := (⟨j, hj'⟩ : Fin 8)) _ _ (Finset.mem_univ _)]
    simp only [lt_irrefl, if_false, add_zero, Nat.lt_succ_self, if_true]
    congr 1
    refine Finset.sum_congr rfl (fun kb hkb => ?_)
    have hne : kb.val ≠ j := fun h => (Finset.ne_of_mem_erase hkb) (Fin.ext h)
    by_cases hlt : kb.val < j
    · rw [if_pos hlt, if_pos (Nat.lt_succ_of_lt hlt)]
    · rw [if_neg hlt, if_neg (by omega)]

theorem prefixSum_eight (f : Fin 4096 → EReal) : prefixSum f 8 = ∑ k : Fin 4096, f k := by
  rw [sum_blocks_prefix f 8 le_rfl, sum_blocks]
  exact Finset.sum_congr rfl (fun kb _ => if_pos kb.isLt)

end Cert.Spec

end
-- ==== Proof.KI.Val0b.lean ====
import proofs.«141190_j33311766347902_1_alg».proof.Proof.Gen.KernelIdeal.Skeleton
import proofs.«141190_j33311766347902_1_alg».proof.Proof.Spec
import proofs.«141190_j33311766347902_1_alg».proof.Proof.SpecAlg
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic
open Idealize.ShloMosaic.ValueIdx

theorem lhs_dot0_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_dot0_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_dot0_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_dot0_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

theorem matmul0_apply (a b : FVec Ideal S1024x512 .bf16) (p q : Fin 1024) :
    FloatOps.matmul dot_S1024x512_S1024x512_S1024x1024_1_1_0_0_n_n none a b (constant (F := Ideal) S1024x1024 .f32 0x00000000#32) (ix2 p q)
      = ∑ kk : Fin 512, a (ix2 p kk) * b (ix2 q kk) := by
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_dot0_0 _ _
    | ⟨1, _⟩ => exact (lhs_dot0_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_dot0_0 _ _
    | ⟨1, _⟩ => exact (rhs_dot0_1 _ _).trans hk)
  rw [el, er]

theorem pay1_0_apply (p q : Fin 1024) : (k0_pay1 (F := Ideal)) (ix2 p q) = 0 := by
  unfold k0_pay1
  exact (congrFun (shapeCast_self _ _) (ix2 p q)).trans Ideal.ofBits_zero_f32

theorem pay2_0_apply (x0 x1 : Vec Ideal S1024x512 .f32) (xs : Vec Ideal S1024x1024 .f32) (p q : Fin 1024) :
    k0_pay2 (F := Ideal) x0 x1 xs (ix2 p q)
      = (xs (ix2 p q) : EReal) + ∑ kk : Fin 512, Cert.Spec.sg (Cert.Spec.quant (x0 (ix2 p kk))) * Cert.Spec.sg (x1 (ix2 q kk)) := by
  unfold k0_pay2
  refine (congrFun (shapeCast_self _ _) (ix2 p q)).trans ?_
  refine congrArg (fun z : EReal => (xs (ix2 p q) : EReal) + z) ?_
  refine (matmul0_apply _ _ p q).trans ?_
  refine Finset.sum_congr rfl fun kk _ => ?_
  refine congrArg (fun z : EReal => z * Cert.Spec.sg (x1 (ix2 q kk))) ?_
  show Cert.Spec.sg (Ideal.liftRound Ideal.roundHalfEven ((x0 (ix2 p kk) : EReal) * Ideal.ofBits .f32 0x43000000#32) * Ideal.ofBits .f32 0x3C000000#32) = _
  rw [Cert.Spec.quant_mul]
  rfl

theorem pay3_0_apply (acc : Vec Ideal S1024x1024 .f32) (b g var mu be : Vec Ideal S1x1024 .f32) (p q : Fin 1024) :
    k0_pay3 (F := Ideal) acc b g var mu be (ix2 p q)
      = Cert.Spec.sg (Cert.Spec.bn (acc (ix2 p q)) (b (ix2 (0 : Fin 1) q)) (g (ix2 (0 : Fin 1) q)) (be (ix2 (0 : Fin 1) q))
          (mu (ix2 (0 : Fin 1) q)) (var (ix2 (0 : Fin 1) q))) := by
  unfold k0_pay3
  simp only [shapeCast_self]
  have eb := broadcastTo_1b_ab_apply b broadcasts_S1x1024_S1024x1024 p q
  have em := broadcastTo_1b_ab_apply mu broadcasts_S1x1024_S1024x1024 p q
  have ee := broadcastTo_1b_ab_apply be broadcasts_S1x1024_S1024x1024 p q
  have es := broadcastTo_1b_ab_apply (divf g (sqrt (addf var (broadcast S1x1024 (Scalar.ofBits (F := Ideal) .f32 0x3727C5AC#32))))) broadcasts_S1x1024_S1024x1024 p q
  show Cert.Spec.sg ((((acc (ix2 p q) : EReal) + broadcastTo S1024x1024 b broadcasts_S1x1024_S1024x1024 (ix2 p q))
      - broadcastTo S1024x1024 mu broadcasts_S1x1024_S1024x1024 (ix2 p q))
      * broadcastTo S1024x1024 (divf g (sqrt (addf var (broadcast S1x1024 (Scalar.ofBits (F := Ideal) .f32 0x3727C5AC#32))))) broadcasts_S1x1024_S1024x1024 (ix2 p q)
      + broadcastTo S1024x1024 be broadcasts_S1x1024_S1024x1024 (ix2 p q)) = _
  rw [eb, em, ee, es]
  rfl

end Cert.KernelIdeal.Gen

end
-- ==== Proof.KI.Val0c.lean ====
import proofs.«141190_j33311766347902_1_alg».proof.Proof.KI.Data0
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

abbrev xblk0 (c : Dev nD) (t : Fin cfg0.N) : Vec F S1024x512 .f32 := iblk0 V c 0 t
abbrev wblk0 (c : Dev nD) (t : Fin cfg0.N) : Vec F S1024x512 .f32 := iblk0 V c 1 t
abbrev bblk0 (c : Dev nD) (t : Fin cfg0.N) : Vec F S1x1024 .f32 := iblk0 V c 2 t
abbrev gblk0 (c : Dev nD) (t : Fin cfg0.N) : Vec F S1x1024 .f32 := iblk0 V c 3 t
abbrev sblk0 (c : Dev nD) (t : Fin cfg0.N) : Vec F S1x1024 .f32 := iblk0 V c 4 t
abbrev mblk0 (c : Dev nD) (t : Fin cfg0.N) : Vec F S1x1024 .f32 := iblk0 V c 5 t
abbrev vblk0 (c : Dev nD) (t : Fin cfg0.N) : Vec F S1x1024 .f32 := iblk0 V c 6 t

abbrev xarr0 (c : Dev nD) : Vec F S8192x4096 .f32 := V c main_arg0
abbrev warr0 (c : Dev nD) : Vec F S4096x4096 .f32 := V c main_arg1
abbrev barr0 (c : Dev nD) : Vec F S1x4096 .f32 := V c main_v0
abbrev garr0 (c : Dev nD) : Vec F S1x4096 .f32 := V c main_v1
abbrev sarr0 (c : Dev nD) : Vec F S1x4096 .f32 := V c main_v2
abbrev marr0 (c : Dev nD) : Vec F S1x4096 .f32 := V c main_v3
abbrev varr0 (c : Dev nD) : Vec F S1x4096 .f32 := V c main_v4

theorem idx_facts0 : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = 0 ∧ win0_2.index t (1 : Fin 2) = (t.val / 8) % 4
    ∧ win0_3.index t (0 : Fin 2) = 0 ∧ win0_3.index t (1 : Fin 2) = (t.val / 8) % 4
    ∧ win0_4.index t (0 : Fin 2) = 0 ∧ win0_4.index t (1 : Fin 2) = (t.val / 8) % 4
    ∧ win0_5.index t (0 : Fin 2) = 0 ∧ win0_5.index t (1 : Fin 2) = (t.val / 8) % 4
    ∧ win0_6.index t (0 : Fin 2) = 0 ∧ win0_6.index t (1 : Fin 2) = (t.val / 8) % 4
    ∧ win0_7.index t (0 : Fin 2) = t.val / 32 ∧ win0_7.index t (1 : Fin 2) = (t.val / 8) % 4 :=
  (by decide +kernel : ∀ t : Fin grid0.N, _)

theorem xblk0_apply (c : Dev nD) (t : Fin cfg0.N) (p : Fin 1024) (kk : Fin 512) (r : Fin 8192) (k : Fin 4096)
    (hr : r.val = t.val / 32 * 1024 + p.val) (hk : k.val = t.val % 8 * 512 + kk.val) :
    xblk0 V c t (ix2 p kk) = xarr0 V c (ix2 r k) := by
  obtain ⟨e0, e1, -⟩ := idx_facts0 t
  show ((cfg0.win 0).blk t).view.read (Elt F) (V c (Pipeline.arrRef spec0 0)) (ix2 p kk) = _
  rw [View.read_apply]
  show V c main_arg0 _ = V c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * kk.val = k.val; rw [e1, hk]; omega

theorem wblk0_apply (c : Dev nD) (t : Fin cfg0.N) (q : Fin 1024) (kk : Fin 512) (n : Fin 4096) (k : Fin 4096)
    (hn : n.val = t.val / 8 % 4 * 1024 + q.val) (hk : k.val = t.val % 8 * 512 + kk.val) :
    wblk0 V c t (ix2 q kk) = warr0 V c (ix2 n k) := by
  obtain ⟨-, -, e0, e1, -⟩ := idx_facts0 t
  show ((cfg0.win 1).blk t).view.read (Elt F) (V c (Pipeline.arrRef spec0 1)) (ix2 q kk) = _
  rw [View.read_apply]
  show V c main_arg1 _ = V c main_arg1 _
  congr 1
  funext a
  apply Fin.ext
  match a with
  | ⟨0, _⟩ => show win0_1.index t (0 : Fin 2) * 1024 + 1 * q.val = n.val; rw [e0, hn]; omega
  | ⟨1, _⟩ => show win0_1.index t (1 : Fin 2) * 512 + 1 * kk.val = k.val; rw [e1, hk]; omega

theorem bblk0_apply (c : Dev nD) (t : Fin cfg0.N) (q : Fin 1024) (n : Fin 4096)
    (hn : n.val = t.val / 8 % 4 * 1024 + q.val) :
    bblk0 V c t (ix2 (0 : Fin 1) q) = barr0 V c (ix2 (0 : Fin 1) n) := by
  obtain ⟨-, -, -, -, e0, e1, -⟩ := idx_facts0 t
  show ((cfg0.win 2).blk t).view.read (Elt F) (V c (Pipeline.arrRef spec0 2)) (ix2 (0 : Fin 1) q) = _
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 1024 + 1 * q.val = n.val; rw [e1, hn]; omega

theorem gblk0_apply (c : Dev nD) (t : Fin cfg0.N) (q : Fin 1024) (n : Fin 4096)
    (hn : n.val = t.val / 8 % 4 * 1024 + q.val) :
    gblk0 V c t (ix2 (0 : Fin 1) q) = garr0 V c (ix2 (0 : Fin 1) n) := by
  obtain ⟨-, -, -, -, -, -, e0, e1, -⟩ := idx_facts0 t
  show ((cfg0.win 3).blk t).view.read (Elt F) (V c (Pipeline.arrRef spec0 3)) (ix2 (0 : Fin 1) q) = _
  rw [View.read_apply]
  show V c main_v1 _ = V c main_v1 _
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 1024 + 1 * q.val = n.val; rw [e1, hn]; omega

theorem sblk0_apply (c : Dev nD) (t : Fin cfg0.N) (q : Fin 1024) (n : Fin 4096)
    (hn : n.val = t.val / 8 % 4 * 1024 + q.val) :
    sblk0 V c t (ix2 (0 : Fin 1) q) = sarr0 V c (ix2 (0 : Fin 1) n) := by
  obtain ⟨-, -, -, -, -, -, -, -, e0, e1, -⟩ := idx_facts0 t
  show ((cfg0.win 4).blk t).view.read (Elt F) (V c (Pipeline.arrRef spec0 4)) (ix2 (0 : Fin 1) q) = _
  rw [View.read_apply]
  show V c main_v2 _ = V c main_v2 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * q.val = n.val; rw [e1, hn]; omega

theorem mblk0_apply (c : Dev nD) (t : Fin cfg0.N) (q : Fin 1024) (n : Fin 4096)
    (hn : n.val = t.val / 8 % 4 * 1024 + q.val) :
    mblk0 V c t (ix2 (0 : Fin 1) q) = marr0 V c (ix2 (0 : Fin 1) n) := by
  obtain ⟨-, -, -, -, -, -, -, -, -, -, e0, e1, -⟩ := idx_facts0 t
  show ((cfg0.win 5).blk t).view.read (Elt F) (V c (Pipeline.arrRef spec0 5)) (ix2 (0 : Fin 1) q) = _
  rw [View.read_apply]
  show V c main_v3 _ = V c main_v3 _
  congr 1
  funext a
  apply Fin.ext
  match a with
  | ⟨0, _⟩ => show win0_5.index t (0 : Fin 2) * 1 + 1 * (0 : Fin 1).val = (0 : Fin 1).val; rw [e0]; rfl
  | ⟨1, _⟩ => show win0_5.index t (1 : Fin 2) * 1024 + 1 * q.val = n.val; rw [e1, hn]; omega

theorem vblk0_apply (c : Dev nD) (t : Fin cfg0.N) (q : Fin 1024) (n : Fin 4096)
    (hn : n.val = t.val / 8 % 4 * 1024 + q.val) :
    vblk0 V c t (ix2 (0 : Fin 1) q) = varr0 V c (ix2 (0 : Fin 1) n) := by
  obtain ⟨-, -, -, -, -, -, -, -, -, -, -, -, e0, e1, -⟩ := idx_facts0 t
  show ((cfg0.win 6).blk t).view.read (Elt F) (V c (Pipeline.arrRef spec0 6)) (ix2 (0 : Fin 1) q) = _
  rw [View.read_apply]
  show V c main_v4 _ = V c main_v4 _
  congr 1
  funext a
  apply Fin.ext
  match a with
  | ⟨0, _⟩ => show win0_6.index t (0 : Fin 2) * 1 + 1 * (0 : Fin 1).val = (0 : Fin 1).val; rw [e0]; rfl
  | ⟨1, _⟩ => show win0_6.index t (1 : Fin 2) * 1024 + 1 * q.val = n.val; rw [e1, hn]; omega

end Cert.KernelIdeal.Gen

end
-- ==== Proof.KI.Val0.lean ====
import proofs.«141190_j33311766347902_1_alg».proof.Proof.KI.Val0a
import proofs.«141190_j33311766347902_1_alg».proof.Proof.KI.Val0b
import proofs.«141190_j33311766347902_1_alg».proof.Proof.KI.Val0c
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)
open Idealize.ShloMosaic.ValueIdx

section AtIdeal
variable (V : (c : Dev nD) → (b : Ref sig .tc) → Buf (Elt Ideal) ((c : Thread nD τ).loc b))

def term0 (c : Dev nD) (r : Fin 8192) (n : Fin 4096) (k : Fin 4096) : EReal :=
  Cert.Spec.sg (Cert.Spec.quant (xarr0 V c (ix2 r k))) * Cert.Spec.sg (warr0 V c (ix2 n k))

theorem acc0_first (c : Dev nD) (t : Fin cfg0.N) (h0 : t.val % 8 = 0) :
    (outsAt0 V c t.val t.isLt).2 = k0_pay2 (xblk0 V c t) (wblk0 V c t) (k0_pay1 (F := Ideal)) := by
  have h1 : ¬t.val % 8 = 7 := by omega
  rw [outsAt0_A V c t ((hfirst0 _).mpr h0)]
  dsimp only
  exact soutA_eq (F := Ideal) (args0 V c t) c _ _

theorem acc0_later (c : Dev nD) (t : Fin cfg0.N) (h0 : ¬t.val % 8 = 0) :
    (outsAt0 V c t.val t.isLt).2
      = k0_pay2 (xblk0 V c t) (wblk0 V c t) (prev0 V c t) := by
  by_cases h1 : t.val % 8 = 7
  · rw [outsAt0_C V c t (mt (hfirst0 _).mp h0) ((hlast0 _).mpr h1)]
    dsimp only
    exact soutC_eq (F := Ideal) (args0 V c t) c _ _ _
  · rw [outsAt0_B V c t (mt (hfirst0 _).mp h0) (mt (hlast0 _).mp h1)]
    dsimp only
    exact soutB_eq (F := Ideal) (args0 V c t) c _ _ _

end AtIdeal

section AtIdeal2
variable (V : (c : Dev nD) → (b : Ref sig .tc) → Buf (Elt Ideal) ((c : Thread nD τ).loc b))

theorem step_sum0 (c : Dev nD) (t : Fin cfg0.N) (p q : Fin 1024) (r : Fin 8192) (n : Fin 4096)
    (hr : r.val = t.val / 32 * 1024 + p.val) (hn : n.val = t.val / 8 % 4 * 1024 + q.val) (j : ℕ) (hj : j < 8)
    (hjt : t.val % 8 = j) :
    (∑ kk : Fin 512, Cert.Spec.sg (Cert.Spec.quant (xblk0 V c t (ix2 p kk))) * Cert.Spec.sg (wblk0 V c t (ix2 q kk)))
      = ∑ kk : Fin 512, term0 V c r n ⟨j * 512 + kk.val, by omega⟩ := by
  refine Finset.sum_congr rfl fun kk _ => ?_
  have hk : (⟨j * 512 + kk.val, by omega⟩ : Fin 4096).val = t.val % 8 * 512 + kk.val := by
    show j * 512 + kk.val = _
    rw [hjt]
  rw [xblk0_apply V c t p kk r ⟨j * 512 + kk.val, by omega⟩ hr hk,
    wblk0_apply V c t q kk n ⟨j * 512 + kk.val, by omega⟩ hn hk]
  rfl

theorem acc0_eq (c : Dev nD) : ∀ (n : ℕ) (hn : n < cfg0.N) (p q : Fin 1024) (r : Fin 8192) (m : Fin 4096),
    r.val = n / 32 * 1024 + p.val → m.val = n / 8 % 4 * 1024 + q.val →
    ((outsAt0 V c n hn).2 (ix2 p q) : EReal) = Cert.Spec.prefixSum (term0 V c r m) (n % 8 + 1) := by
  intro n
  induction n with
  | zero =>
    intro hn p q r m hr hm
    have e := acc0_first V c ⟨0, hn⟩ rfl
    rw [show outsAt0 V c 0 hn = outsAt0 V c (⟨0, hn⟩ : Fin cfg0.N).val (⟨0, hn⟩ : Fin cfg0.N).isLt from rfl, e]
    refine (pay2_0_apply (xblk0 V c ⟨0, hn⟩) (wblk0 V c ⟨0, hn⟩) (k0_pay1 (F := Ideal)) p q).trans ?_
    rw [pay1_0_apply, step_sum0 V c ⟨0, hn⟩ p q r m hr hm 0 (by omega) rfl]
    rw [show 0 % 8 + 1 = 0 + 1 from rfl, Cert.Spec.prefixSum_succ _ 0 (by omega), Cert.Spec.prefixSum_zero]
  | succ n ih =>
    intro hn p q r m hr hm
    by_cases h0 : (n + 1) % 8 = 0
    · have e := acc0_first V c ⟨n + 1, hn⟩ h0
      rw [show outsAt0 V c (n + 1) hn = outsAt0 V c (⟨n + 1, hn⟩ : Fin cfg0.N).val (⟨n + 1, hn⟩ : Fin cfg0.N).isLt from rfl, e]
      refine (pay2_0_apply (xblk0 V c ⟨n + 1, hn⟩) (wblk0 V c ⟨n + 1, hn⟩) (k0_pay1 (F := Ideal)) p q).trans ?_
      rw [pay1_0_apply, step_sum0 V c ⟨n + 1, hn⟩ p q r m hr hm 0 (by omega) h0]
      rw [h0, Cert.Spec.prefixSum_succ _ 0 (by omega), Cert.Spec.prefixSum_zero]
    · have e := acc0_later V c ⟨n + 1, hn⟩ h0
      rw [show outsAt0 V c (n + 1) hn = outsAt0 V c (⟨n + 1, hn⟩ : Fin cfg0.N).val (⟨n + 1, hn⟩ : Fin cfg0.N).isLt from rfl, e]
      refine (pay2_0_apply (xblk0 V c ⟨n + 1, hn⟩) (wblk0 V c ⟨n + 1, hn⟩) (outsAt0 V c n (Nat.lt_of_succ_lt hn)).2 p q).trans ?_
      have hr' : r.val = n / 32 * 1024 + p.val := by rw [hr]; omega
      have hm' : m.val = n / 8 % 4 * 1024 + q.val := by rw [hm]; omega
      have hj : (n + 1) % 8 = n % 8 + 1 := by omega
      rw [ih (Nat.lt_of_succ_lt hn) p q r m hr' hm',
        step_sum0 V c ⟨n + 1, hn⟩ p q r m hr hm (n % 8 + 1) (by omega) hj,
        hj, Cert.Spec.prefixSum_succ _ (n % 8 + 1) (by omega)]

end AtIdeal2

section AtIdeal3
variable (V : (c : Dev nD) → (b : Ref sig .tc) → Buf (Elt Ideal) ((c : Thread nD τ).loc b))

def res0 (c : Dev nD) (r : Fin 8192) (n : Fin 4096) : EReal :=
  Cert.Spec.sg (Cert.Spec.layer (fun r k => Cert.Spec.quant (xarr0 V c (ix2 r k))) (fun n k => warr0 V c (ix2 n k))
    (fun n => barr0 V c (ix2 (0 : Fin 1) n)) (fun n => garr0 V c (ix2 (0 : Fin 1) n)) (fun n => sarr0 V c (ix2 (0 : Fin 1) n))
    (fun n => marr0 V c (ix2 (0 : Fin 1) n)) (fun n => varr0 V c (ix2 (0 : Fin 1) n)) r n)

theorem tile0_eq (c : Dev nD) (t : Fin cfg0.N) (h7 : t.val % 8 = 7) (p q : Fin 1024) (r : Fin 8192) (n : Fin 4096)
    (hr : r.val = t.val / 32 * 1024 + p.val) (hn : n.val = t.val / 8 % 4 * 1024 + q.val) :
    ((outsAt0 V c t.val t.isLt).1 (ix2 p q) : EReal) = res0 V c r n := by
  have h0 : ¬t.val % 8 = 0 := by omega
  rw [outsAt0_C V c t (mt (hfirst0 _).mp h0) ((hlast0 _).mpr h7)]
  dsimp only
  refine (congrFun (outC_eq (F := Ideal) (args0 V c t) c _ _ _) (ix2 p q)).trans ?_
  rw [← acc0_later V c t h0]
  refine (pay3_0_apply (outsAt0 V c t.val t.isLt).2 (bblk0 V c t) (gblk0 V c t) (vblk0 V c t) (mblk0 V c t) (sblk0 V c t) p q).trans ?_
  rw [acc0_eq V c t.val t.isLt p q r n hr hn, h7, Cert.Spec.prefixSum_eight,
    bblk0_apply V c t q n hn, gblk0_apply V c t q n hn, sblk0_apply V c t q n hn, mblk0_apply V c t q n hn,
    vblk0_apply V c t q n hn]
  rfl

end AtIdeal3

section AtIdeal4
variable (V : (c : Dev nD) → (b : Ref sig .tc) → Buf (Elt Ideal) ((c : Thread nD τ).loc b))

abbrev G0 (c : Dev nD) : Buf (Elt Ideal) ((c : Thread nD τ).loc main_v5) :=
  fun i => res0 V c ⟨(i 0).val, idx2_lt0 i⟩ ⟨(i 1).val, idx2_lt1 i⟩

theorem flushed0_eq (c : Dev nD) (t : Fin cfg0.N) (hf : (cfg0.win 7).flush t = true) :
    (dat0 V c).flushed 7 t = ((cfg0.win 7).blk t).view.read (Elt Ideal) (G0 V c) := by
  have h7 : t.val % 8 = 7 := (flush0_7 t).mp hf
  obtain ⟨-, -, -, -, -, -, -, -, -, -, -, -, -, -, e0, e1⟩ := idx_facts0 t
  have key : ∀ (p q : Fin 1024) (i : S8192x4096.Idx), (i 0).val = t.val / 32 * 1024 + p.val →
      (i 1).val = t.val / 8 % 4 * 1024 + q.val → ((outsAt0 V c t.val t.isLt).1 (ix2 p q) : EReal) = G0 V c i :=
    fun p q i h0 h1 => tile0_eq V c t h7 p q ⟨(i 0).val, idx2_lt0 i⟩ ⟨(i 1).val, idx2_lt1 i⟩ h0 h1
  show (cfg0.win 7).cut (grid0.coords t) ((dat0 V c).after 7 t) = _
  rw [after0_7]
  funext y
  obtain ⟨p, q, rfl⟩ : ∃ (p q : Fin 1024), y = ix2 p q := ⟨y 0, y 1, eq_ix2 y⟩
  show (outsAt0 V c t.val t.isLt).1 (ix2 p q) = G0 V c (((cfg0.win 7).blk t).view.emb (ix2 p q))
  refine key p q (((cfg0.win 7).blk t).view.emb (ix2 p q)) ?_ ?_
  · show win0_7.index t (0 : Fin 2) * 1024 + 1 * p.val = _
    rw [e0]; omega
  · show win0_7.index t (1 : Fin 2) * 1024 + 1 * q.val = _
    rw [e1]; omega

theorem final0 (c : Dev nD) : (dat0 V c).arrAt 7 cfg0.N = G0 V c :=
  (dat0 V c).arrAt_eq_of_cover 7 (G0 V c) (flushed0_eq V c) fun i => by
    have h0 : (i 0 : Nat) < 8192 := (i 0).isLt
    have h1 : (i 1 : Nat) < 4096 := (i 1).isLt
    have hN : cfg0.N = 256 := N_0
    obtain ⟨tv, htv⟩ : ∃ tv : ℕ, tv = ((i 0 : Nat) / 1024 * 4 + (i 1 : Nat) / 1024) * 8 + 7 := ⟨_, rfl⟩
    have ht : tv < cfg0.N := by rw [hN]; omega
    obtain ⟨-, -, -, -, -, -, -, -, -, -, -, -, -, -, e0, e1⟩ := idx_facts0 ⟨tv, ht⟩
    have e0' : win0_7.index ⟨tv, ht⟩ (0 : Fin 2) = tv / 32 := e0
    have e1' : win0_7.index ⟨tv, ht⟩ (1 : Fin 2) = tv / 8 % 4 := e1
    refine ⟨⟨tv, ht⟩, (flush0_7 ⟨tv, ht⟩).mpr (by show tv % 8 = 7; omega), ?_⟩
    show i ∈ ((View.whole main_v5).slice (win0_7.rect ⟨tv, ht⟩)).set
    rw [View.set_slice_whole, Rect.mem_set_unit]
    intro a
    match a with
    | ⟨0, _⟩ =>
      show win0_7.index ⟨tv, ht⟩ (0 : Fin 2) * 1024 ≤ (i 0 : Nat) ∧ (i 0 : Nat) < win0_7.index ⟨tv, ht⟩ (0 : Fin 2) * 1024 + 1024
      rw [e0']; omega
    | ⟨1, _⟩ =>
      show win0_7.index ⟨tv, ht⟩ (1 : Fin 2) * 1024 ≤ (i 1 : Nat) ∧ (i 1 : Nat) < win0_7.index ⟨tv, ht⟩ (1 : Fin 2) * 1024 + 1024
      rw [e1']; omega

end AtIdeal4

theorem layer0_value (V : (c : Dev nD) → (b : Ref sig .tc) → Buf (Elt Ideal) ((c : Thread nD τ).loc b)) (c : Dev nD)
    (r : Fin 8192) (n : Fin 4096) :
    (dat0 V c).arrAt 7 cfg0.N (ValueIdx.ix2 r n)
      = Cert.Spec.sg (Cert.Spec.layer (fun r k => Cert.Spec.quant (V c main_arg0 (ix2 r k))) (fun n k => V c main_arg1 (ix2 n k))
          (fun n => V c main_v0 (ix2 0 n)) (fun n => V c main_v1 (ix2 0 n)) (fun n => V c main_v2 (ix2 0 n))
          (fun n => V c main_v3 (ix2 0 n)) (fun n => V c main_v4 (ix2 0 n)) r n) :=
  (congrFun (final0 V c) (ix2 r n)).trans rfl

end Cert.KernelIdeal.Gen

end
-- ==== Proof.KI.Val1a.lean ====
import proofs.«141190_j33311766347902_1_alg».proof.Proof.KI.Data1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F] (a : Args1 F) (c : Dev nD)

theorem hz1 : (![0, 0] : Fin 2 → Nat) = fun _ => 0 := funext fun j => by fin_cases j <;> rfl

/-- A first step stores the zero tile, then the step's product added onto it. -/
theorem sout1_A_eq (hc0 : first1 a.i) (hc1 : ¬last1 a.i) :
    sout1_A a c hc0 hc1 = k1_pay2 a.x0 a.x1 (k1_pay1 (F := F)) := by
  unfold sout1_A
  rw [View.read_writes_eq_canon _ _ _ (scover1_A a c hc0 hc1)]
  unfold Args1.runA kernelRun1_A
  dsimp only
  sl_unfold_words
  rw [View.canon_cons_unit_zero (S := S1024x1024) hz1]
  simp only [View.readAt_eq_ld, a.h0.read_unread, a.h1.read_unread, View.ld_unit_zero (S := S1024x512) hz1, View.readCov_unit_zero (S := S1024x1024) _ hz1]

/-- A middle step adds its product onto what the accumulator held. -/
theorem sout1_B_eq (hc0 : ¬first1 a.i) (hc1 : ¬last1 a.i) (xs : Vec F S1024x1024 .f32) :
    sout1_B a c hc0 hc1 xs = k1_pay2 a.x0 a.x1 xs := by
  unfold sout1_B
  rw [View.read_writes_eq_canon _ _ _ (scover1_B a c hc0 hc1 xs)]
  unfold Args1.runB kernelRun1_B
  dsimp only
  sl_unfold_words
  rw [View.canon_unit_zero hz1]
  simp only [View.readAt_eq_ld, a.h0.read_unread, a.h1.read_unread, a.hacc.read_unread, View.ld_unit_zero (S := S1024x512) hz1, View.ld_unit_zero (S := S1024x1024) hz1]

/-- A last step accumulates as a middle step does. -/
theorem sout1_C_eq (hc0 : ¬first1 a.i) (hc1 : last1 a.i) (xs : Vec F S1024x1024 .f32) :
    sout1_C a c hc0 hc1 xs = k1_pay2 a.x0 a.x1 xs := by
  unfold sout1_C
  rw [View.read_writes_eq_canon _ _ _ (scover1_C a c hc0 hc1 xs)]
  unfold Args1.runC kernelRun1_C
  dsimp only
  sl_unfold_words
  rw [View.canon_unit_zero hz1]
  simp only [View.readAt_eq_ld, a.h0.read_unread, a.h1.read_unread, a.hacc.read_unread, View.ld_unit_zero (S := S1024x512) hz1, View.ld_unit_zero (S := S1024x1024) hz1]

/-- The stored tile is the bias and normalization applied to the finished accumulator. -/
theorem out1_C_eq (hc0 : ¬first1 a.i) (hc1 : last1 a.i) (xs : Vec F S1024x1024 .f32) :
    out1_C a c hc0 hc1 xs = k1_pay3 (k1_pay2 a.x0 a.x1 xs) a.x2 a.x3 a.x6 a.x5 a.x4 := by
  unfold out1_C
  rw [View.read_writes_eq_canon _ _ _ (cover1_C a c hc0 hc1 xs)]
  unfold Args1.runC kernelRun1_C
  dsimp only
  sl_unfold_words
  rw [View.canon_unit_zero hz1]
  simp only [View.readAt_eq_ld, a.h0.read_unread, a.h1.read_unread, a.h2.read_unread, a.h3.read_unread, a.h4.read_unread, a.h5.read_unread, a.h6.read_unread, a.hacc.read_unread, View.ld_unit_zero (S := S1024x512) hz1, View.ld_unit_zero (S := S1024x1024) hz1, View.ld_unit_zero (S := S1x1024) hz1, View.readCov_unit_zero (S := S1024x1024) _ hz1]

end Cert.KernelIdeal.Gen

end
-- ==== Proof.KI.Val1b.lean ====
import proofs.«141190_j33311766347902_1_alg».proof.Proof.Gen.KernelIdeal.Skeleton
import proofs.«141190_j33311766347902_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.ValueIdx

theorem pay1_apply (j : S1024x1024.Idx) : k1_pay1 (F := Ideal) j = 0 := by
  unfold k1_pay1
  simp only [shapeCast_self]
  exact Ideal.ofBits_zero_f32

def signs {S : Shape} (ψ : FTy) (v : S.Idx → EReal) : FVec Ideal S ψ := fun i => Cert.Spec.sg (v i)

theorem pay2_eq (x : Vec Ideal S1024x512 .bf16) (w : Vec Ideal S1024x512 .f32) (acc : Vec Ideal S1024x1024 .f32) :
    k1_pay2 x w acc = fun j => acc j + FloatOps.matmul dot_S1024x512_S1024x512_S1024x1024_1_1_0_0_n_n none
      (signs .bf16 x) (signs .bf16 w) (constant S1024x1024 .f32 0x00000000#32) j := by
  unfold k1_pay2
  simp only [shapeCast_self]
  rfl

theorem lhs1_0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs1_1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k

theorem rhs1_0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs1_1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

theorem pay2_apply (x : Vec Ideal S1024x512 .bf16) (w : Vec Ideal S1024x512 .f32) (acc : Vec Ideal S1024x1024 .f32)
    (p q : Fin 1024) :
    k1_pay2 x w acc (ix2 p q) = acc (ix2 p q) + ∑ kk : Fin 512, Cert.Spec.sg (x (ix2 p kk)) * Cert.Spec.sg (w (ix2 q kk)) := by
  rw [pay2_eq]
  show acc (ix2 p q) + _ = acc (ix2 p q) + _
  refine congrArg (acc (ix2 p q) + ·) ?_
  refine (Ideal.matmul_constant_zero_apply dot_S1024x512_S1024x512_S1024x1024_1_1_0_0_n_n none _ _ (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs1_0 _ _
    | ⟨1, _⟩ => exact (lhs1_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs1_0 _ _
    | ⟨1, _⟩ => exact (rhs1_1 _ _).trans hk)
  rw [el, er]
  rfl

theorem row_apply {α : Type} (v : S1x1024.Idx → α) (p q : Fin 1024) :
    broadcastTo S1024x1024 v broadcasts_S1x1024_S1024x1024 (ix2 p q) = v (ix2 0 q) :=
  broadcastTo_apply v broadcasts_S1x1024_S1024x1024 (ix2 p q) (ix2 0 q) (fun a => by
    match a with
    | ⟨0, _⟩ => rfl
    | ⟨1, _⟩ => rfl)

theorem pay3_eq (acc : Vec Ideal S1024x1024 .f32) (b g var mean shift : Vec Ideal S1x1024 .f32) :
    k1_pay3 acc b g var mean shift = fun j => Cert.Spec.sg
      (((acc j + broadcastTo S1024x1024 b broadcasts_S1x1024_S1024x1024 j)
          - broadcastTo S1024x1024 mean broadcasts_S1x1024_S1024x1024 j)
        * broadcastTo S1024x1024 (fun i => Ideal.div (g i) (Ideal.sqrt (var i + Ideal.ofBits .f32 0x3727C5AC#32))) broadcasts_S1x1024_S1024x1024 j
        + broadcastTo S1024x1024 shift broadcasts_S1x1024_S1024x1024 j) := by
  unfold k1_pay3
  simp only [shapeCast_self]
  rfl

theorem pay3_apply (acc : Vec Ideal S1024x1024 .f32) (b g var mean shift : Vec Ideal S1x1024 .f32) (p q : Fin 1024) :
    k1_pay3 acc b g var mean shift (ix2 p q)
      = Cert.Spec.sg (Cert.Spec.bn (acc (ix2 p q)) (b (ix2 0 q)) (g (ix2 0 q)) (shift (ix2 0 q)) (mean (ix2 0 q)) (var (ix2 0 q))) := by
  rw [pay3_eq]
  dsimp only
  rw [row_apply, row_apply, row_apply, row_apply]
  rfl

end Cert.KernelIdeal.Gen

end
-- ==== Proof.KI.Val1c.lean ====
import proofs.«141190_j33311766347902_1_alg».proof.Proof.KI.Data1
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

theorem idx1_0 : ∀ t : Fin cfg1.N, win1_0.index t (0 : Fin 2) = t.val / 32 ∧ win1_0.index t (1 : Fin 2) = t.val % 8 :=
  (by decide +kernel : ∀ t : Fin grid1.N, win1_0.index t (0 : Fin 2) = t.val / 32 ∧ win1_0.index t (1 : Fin 2) = t.val % 8)
theorem idx1_1 : ∀ t : Fin cfg1.N, win1_1.index t (0 : Fin 2) = t.val / 8 % 4 ∧ win1_1.index t (1 : Fin 2) = t.val % 8 :=
  (by decide +kernel : ∀ t : Fin grid1.N, win1_1.index t (0 : Fin 2) = t.val / 8 % 4 ∧ win1_1.index t (1 : Fin 2) = t.val % 8)
theorem idx1_2 : ∀ t : Fin cfg1.N, win1_2.index t (0 : Fin 2) = 0 ∧ win1_2.index t (1 : Fin 2) = t.val / 8 % 4 :=
  (by decide +kernel : ∀ t : Fin grid1.N, win1_2.index t (0 : Fin 2) = 0 ∧ win1_2.index t (1 : Fin 2) = t.val / 8 % 4)
theorem idx1_3 : ∀ t : Fin cfg1.N, win1_3.index t (0 : Fin 2) = 0 ∧ win1_3.index t (1 : Fin 2) = t.val / 8 % 4 :=
  (by decide +kernel : ∀ t : Fin grid1.N, win1_3.index t (0 : Fin 2) = 0 ∧ win1_3.index t (1 : Fin 2) = t.val / 8 % 4)
theorem idx1_4 : ∀ t : Fin cfg1.N, win1_4.index t (0 : Fin 2) = 0 ∧ win1_4.index t (1 : Fin 2) = t.val / 8 % 4 :=
  (by decide +kernel : ∀ t : Fin grid1.N, win1_4.index t (0 : Fin 2) = 0 ∧ win1_4.index t (1 : Fin 2) = t.val / 8 % 4)
theorem idx1_5 : ∀ t : Fin cfg1.N, win1_5.index t (0 : Fin 2) = 0 ∧ win1_5.index t (1 : Fin 2) = t.val / 8 % 4 :=
  (by decide +kernel : ∀ t : Fin grid1.N, win1_5.index t (0 : Fin 2) = 0 ∧ win1_5.index t (1 : Fin 2) = t.val / 8 % 4)
theorem idx1_6 : ∀ t : Fin cfg1.N, win1_6.index t (0 : Fin 2) = 0 ∧ win1_6.index t (1 : Fin 2) = t.val / 8 % 4 :=
  (by decide +kernel : ∀ t : Fin grid1.N, win1_6.index t (0 : Fin 2) = 0 ∧ win1_6.index t (1 : Fin 2) = t.val / 8 % 4)
theorem idx1_7 : ∀ t : Fin cfg1.N, win1_7.index t (0 : Fin 2) = t.val / 32 ∧ win1_7.index t (1 : Fin 2) = t.val / 8 % 4 :=
  (by decide +kernel : ∀ t : Fin grid1.N, win1_7.index t (0 : Fin 2) = t.val / 32 ∧ win1_7.index t (1 : Fin 2) = t.val / 8 % 4)

variable {F : FTy → Type} [FloatOps F]
variable (V : (c : Dev nD) → (b : Ref sig .tc) → Buf (Elt F) ((c : Thread nD τ).loc b))

abbrev xarr1 (c : Dev nD) : Vec F S8192x4096 .bf16 := V c main_v5
abbrev warr1 (c : Dev nD) : Vec F S4096x4096 .f32 := V c main_arg7
abbrev row1_2 (c : Dev nD) : Vec F S1x4096 .f32 := V c main_v6
abbrev row1_3 (c : Dev nD) : Vec F S1x4096 .f32 := V c main_v7
abbrev row1_4 (c : Dev nD) : Vec F S1x4096 .f32 := V c main_v8
abbrev row1_5 (c : Dev nD) : Vec F S1x4096 .f32 := V c main_v9
abbrev row1_6 (c : Dev nD) : Vec F S1x4096 .f32 := V c main_v10

abbrev xblk1 (c : Dev nD) (t : Fin cfg1.N) : Vec F S1024x512 .bf16 := iblk1 V c 0 t
abbrev wblk1 (c : Dev nD) (t : Fin cfg1.N) : Vec F S1024x512 .f32 := iblk1 V c 1 t
abbrev rblk1_2 (c : Dev nD) (t : Fin cfg1.N) : Vec F S1x1024 .f32 := iblk1 V c 2 t
abbrev rblk1_3 (c : Dev nD) (t : Fin cfg1.N) : Vec F S1x1024 .f32 := iblk1 V c 3 t
abbrev rblk1_4 (c : Dev nD) (t : Fin cfg1.N) : Vec F S1x1024 .f32 := iblk1 V c 4 t
abbrev rblk1_5 (c : Dev nD) (t : Fin cfg1.N) : Vec F S1x1024 .f32 := iblk1 V c 5 t
abbrev rblk1_6 (c : Dev nD) (t : Fin cfg1.N) : Vec F S1x1024 .f32 := iblk1 V c 6 t

theorem xblk1_apply (c : Dev nD) (t : Fin cfg1.N) (p : Fin 1024) (kk : Fin 512) (r : Fin 8192) (k : Fin 4096)
    (hr : r.val = t.val / 32 * 1024 + p.val) (hk : k.val = t.val % 8 * 512 + kk.val) :
    xblk1 V c t (ix2 p kk) = xarr1 V c (ix2 r k) := by
  obtain ⟨e0, e1⟩ := idx1_0 t
  unfold xblk1 iblk1
  rw [View.read_apply]
  show V c main_v5 _ = V c main_v5 _
  congr 1
  funext a
  apply Fin.ext
  match a with
  | ⟨0, _⟩ => show win1_0.index t 0 * 1024 + 1 * p.val = r.val; rw [e0, hr]; omega
  | ⟨1, _⟩ => show win1_0.index t 1 * 512 + 1 * kk.val = k.val; rw [e1, hk]; omega

theorem wblk1_apply (c : Dev nD) (t : Fin cfg1.N) (q : Fin 1024) (kk : Fin 512) (n : Fin 4096) (k : Fin 4096)
    (hn : n.val = t.val / 8 % 4 * 1024 + q.val) (hk : k.val = t.val % 8 * 512 + kk.val) :
    wblk1 V c t (ix2 q kk) = warr1 V c (ix2 n k) := by
  obtain ⟨e0, e1⟩ := idx1_1 t
  unfold wblk1 iblk1
  rw [View.read_apply]
  show V c main_arg7 _ = V c main_arg7 _
  congr 1
  funext a
  apply Fin.ext
  match a with
  | ⟨0, _⟩ => show win1_1.index t 0 * 1024 + 1 * q.val = n.val; rw [e0, hn]; omega
  | ⟨1, _⟩ => show win1_1.index t 1 * 512 + 1 * kk.val = k.val; rw [e1, hk]; omega

theorem rblk1_2_apply (c : Dev nD) (t : Fin cfg1.N) (q : Fin 1024) (n : Fin 4096)
    (hn : n.val = t.val / 8 % 4 * 1024 + q.val) :
    rblk1_2 V c t (ix2 0 q) = row1_2 V c (ix2 0 n) := by
  obtain ⟨e0, e1⟩ := idx1_2 t
  unfold rblk1_2 iblk1
  rw [View.read_apply]
  show V c main_v6 _ = V c main_v6 _
  congr 1
  funext a
  apply Fin.ext
  match a with
  | ⟨0, _⟩ => show win1_2.index t 0 * 1 + 1 * 0 = 0; rw [e0]
  | ⟨1, _⟩ => show win1_2.index t 1 * 1024 + 1 * q.val = n.val; rw [e1, hn]; omega

theorem rblk1_3_apply (c : Dev nD) (t : Fin cfg1.N) (q : Fin 1024) (n : Fin 4096)
    (hn : n.val = t.val / 8 % 4 * 1024 + q.val) :
    rblk1_3 V c t (ix2 0 q) = row1_3 V c (ix2 0 n) := by
  obtain ⟨e0, e1⟩ := idx1_3 t
  unfold rblk1_3 iblk1
  rw [View.read_apply]
  show V c main_v7 _ = V c main_v7 _
  congr 1
  funext a
  apply Fin.ext
  match a with
  | ⟨0, _⟩ => show win1_3.index t 0 * 1 + 1 * 0 = 0; rw [e0]
  | ⟨1, _⟩ => show win1_3.index t 1 * 1024 + 1 * q.val = n.val; rw [e1, hn]; omega

theorem rblk1_4_apply (c : Dev nD) (t : Fin cfg1.N) (q : Fin 1024) (n : Fin 4096)
    (hn : n.val = t.val / 8 % 4 * 1024 + q.val) :
    rblk1_4 V c t (ix2 0 q) = row1_4 V c (ix2 0 n) := by
  obtain ⟨e0, e1⟩ := idx1_4 t
  unfold rblk1_4 iblk1
  rw [View.read_apply]
  show V c main_v8 _ = V c main_v8 _
  congr 1
  funext a
  apply Fin.ext
  match a with
  | ⟨0, _⟩ => show win1_4.index t 0 * 1 + 1 * 0 = 0; rw [e0]
  | ⟨1, _⟩ => show win1_4.index t 1 * 1024 + 1 * q.val = n.val; rw [e1, hn]; omega

theorem rblk1_5_apply (c : Dev nD) (t : Fin cfg1.N) (q : Fin 1024) (n : Fin 4096)
    (hn : n.val = t.val / 8 % 4 * 1024 + q.val) :
    rblk1_5 V c t (ix2 0 q) = row1_5 V c (ix2 0 n) := by
  obtain ⟨e0, e1⟩ := idx1_5 t
  unfold rblk1_5 iblk1
  rw [View.read_apply]
  show V c main_v9 _ = V c main_v9 _
  congr 1
  funext a
  apply Fin.ext
  match a with
  | ⟨0, _⟩ => show win1_5.index t 0 * 1 + 1 * 0 = 0; rw [e0]
  | ⟨1, _⟩ => show win1_5.index t 1 * 1024 + 1 * q.val = n.val; rw [e1, hn]; omega

theorem rblk1_6_apply (c : Dev nD) (t : Fin cfg1.N) (q : Fin 1024) (n : Fin 4096)
    (hn : n.val = t.val / 8 % 4 * 1024 + q.val) :
    rblk1_6 V c t (ix2 0 q) = row1_6 V c (ix2 0 n) := by
  obtain ⟨e0, e1⟩ := idx1_6 t
  unfold rblk1_6 iblk1
  rw [View.read_apply]
  show V c main_v10 _ = V c main_v10 _
  congr 1
  funext a
  apply Fin.ext
  match a with
  | ⟨0, _⟩ => show win1_6.index t 0 * 1 + 1 * 0 = 0; rw [e0]
  | ⟨1, _⟩ => show win1_6.index t 1 * 1024 + 1 * q.val = n.val; rw [e1, hn]; omega

theorem oblk1_apply (G : Vec F S8192x4096 .bf16) (t : Fin cfg1.N) (p q : Fin 1024) (r : Fin 8192) (n : Fin 4096)
    (hr : r.val = t.val / 32 * 1024 + p.val) (hn : n.val = t.val / 8 % 4 * 1024 + q.val) :
    (((cfg1.win 7).blk t).view.read (Elt F) G : Vec F S1024x1024 .bf16) (ix2 p q) = G (ix2 r n) := by
  obtain ⟨e0, e1⟩ := idx1_7 t
  rw [View.read_apply]
  show G _ = G _
  congr 1
  funext a
  apply Fin.ext
  match a with
  | ⟨0, _⟩ => show win1_7.index t 0 * 1024 + 1 * p.val = r.val; rw [e0, hr]; omega
  | ⟨1, _⟩ => show win1_7.index t 1 * 1024 + 1 * q.val = n.val; rw [e1, hn]; omega

end Cert.KernelIdeal.Gen

end
-- ==== Proof.KI.Val1.lean ====
import proofs.«141190_j33311766347902_1_alg».proof.Proof.KI.Val1a
import proofs.«141190_j33311766347902_1_alg».proof.Proof.KI.Val1b
import proofs.«141190_j33311766347902_1_alg».proof.Proof.KI.Val1c
import proofs.«141190_j33311766347902_1_alg».proof.Proof.SpecAlg

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

def feat1 (c : Dev nD) (r : Fin 8192) (n : Fin 4096) : Fin 4096 → EReal :=
  fun k => Cert.Spec.sg (xarr1 V c (ix2 r k)) * Cert.Spec.sg (warr1 V c (ix2 n k))

theorem step1_sum (c : Dev nD) (t : Fin cfg1.N) (p q : Fin 1024) (r : Fin 8192) (n : Fin 4096)
    (hr : r.val = t.val / 32 * 1024 + p.val) (hn : n.val = t.val / 8 % 4 * 1024 + q.val) :
    ∑ kk : Fin 512, Cert.Spec.sg (xblk1 V c t (ix2 p kk)) * Cert.Spec.sg (wblk1 V c t (ix2 q kk))
      = ∑ kk : Fin 512, feat1 V c r n ⟨t.val % 8 * 512 + kk.val, by omega⟩ :=
  Finset.sum_congr rfl fun kk _ => by
    rw [xblk1_apply V c t p kk r ⟨t.val % 8 * 512 + kk.val, by omega⟩ hr rfl,
      wblk1_apply V c t q kk n ⟨t.val % 8 * 512 + kk.val, by omega⟩ hn rfl]
    rfl

theorem prefix_step (f : Fin 4096 → EReal) (j : ℕ) (hj : j < 8) (a s : EReal) (ha : a = Cert.Spec.prefixSum f j)
    (hs : s = ∑ kk : Fin 512, f ⟨j * 512 + kk.val, by omega⟩) : a + s = Cert.Spec.prefixSum f (j + 1) := by
  rw [ha, hs, Cert.Spec.prefixSum_succ f j hj]

theorem acc1_at (c : Dev nD) : ∀ (m : ℕ) (hm : m < cfg1.N) (p q : Fin 1024) (r : Fin 8192) (n : Fin 4096),
    r.val = m / 32 * 1024 + p.val → n.val = m / 8 % 4 * 1024 + q.val →
    (outsAt1 V c m hm).2 (ix2 p q) = Cert.Spec.prefixSum (feat1 V c r n) (m % 8 + 1) := by
  intro m
  induction m using Nat.strong_induction_on with
  | _ m ih =>
    intro hm p q r n hr hn
    have hlt : m % 8 < 8 := Nat.mod_lt _ (by decide)
    by_cases h0 : m % 8 = 0
    · have h1 : ¬m % 8 = 7 := by omega
      rw [outsAt1_A V c ⟨m, hm⟩ ((hfirst1 _).mpr h0)]
      dsimp only
      refine (congrFun (sout1_A_eq (F := Ideal) (args1 V c ⟨m, hm⟩) c _ _) (ix2 p q)).trans ?_
      refine (pay2_apply (xblk1 V c ⟨m, hm⟩) (wblk1 V c ⟨m, hm⟩) (k1_pay1 (F := Ideal)) p q).trans ?_
      exact prefix_step (feat1 V c r n) (m % 8) hlt _ _ ((pay1_apply (ix2 p q)).trans (by rw [h0, Cert.Spec.prefixSum_zero]))
        (step1_sum V c ⟨m, hm⟩ p q r n hr hn)
    · have hprev : (outsAt1 V c (m - 1) (Nat.lt_of_le_of_lt (Nat.sub_le _ _) hm)).2 (ix2 p q)
          = Cert.Spec.prefixSum (feat1 V c r n) (m % 8) :=
        (ih (m - 1) (by omega) _ p q r n (by omega) (by omega)).trans
          (congrArg (Cert.Spec.prefixSum (feat1 V c r n)) (by omega))
      by_cases h1 : m % 8 = 7
      · rw [outsAt1_C V c ⟨m, hm⟩ (mt (hfirst1 _).mp h0) ((hlast1 _).mpr h1)]
        dsimp only
        refine (congrFun (sout1_C_eq (F := Ideal) (args1 V c ⟨m, hm⟩) c _ _ _) (ix2 p q)).trans ?_
        refine (pay2_apply (xblk1 V c ⟨m, hm⟩) (wblk1 V c ⟨m, hm⟩) (outsAt1 V c (m - 1) (Nat.lt_of_le_of_lt (Nat.sub_le _ _) hm)).2 p q).trans ?_
        exact prefix_step (feat1 V c r n) (m % 8) hlt _ _ hprev (step1_sum V c ⟨m, hm⟩ p q r n hr hn)
      · rw [outsAt1_B V c ⟨m, hm⟩ (mt (hfirst1 _).mp h0) (mt (hlast1 _).mp h1)]
        dsimp only
        refine (congrFun (sout1_B_eq (F := Ideal) (args1 V c ⟨m, hm⟩) c _ _ _) (ix2 p q)).trans ?_
        refine (pay2_apply (xblk1 V c ⟨m, hm⟩) (wblk1 V c ⟨m, hm⟩) (outsAt1 V c (m - 1) (Nat.lt_of_le_of_lt (Nat.sub_le _ _) hm)).2 p q).trans ?_
        exact prefix_step (feat1 V c r n) (m % 8) hlt _ _ hprev (step1_sum V c ⟨m, hm⟩ p q r n hr hn)

def G1 (c : Dev nD) : Vec Ideal S8192x4096 .bf16 := fun i =>
  Cert.Spec.sg (Cert.Spec.layer (fun r k => xarr1 V c (ix2 r k)) (fun n k => warr1 V c (ix2 n k))
    (fun n => row1_2 V c (ix2 0 n)) (fun n => row1_3 V c (ix2 0 n)) (fun n => row1_4 V c (ix2 0 n))
    (fun n => row1_5 V c (ix2 0 n)) (fun n => row1_6 V c (ix2 0 n)) (i 0) (i 1))

theorem out1_at (c : Dev nD) (t : Fin cfg1.N) (h1 : t.val % 8 = 7) (p q : Fin 1024) (r : Fin 8192) (n : Fin 4096)
    (hr : r.val = t.val / 32 * 1024 + p.val) (hn : n.val = t.val / 8 % 4 * 1024 + q.val) :
    (outsAt1 V c t.val t.isLt).1 (ix2 p q) = G1 V c (ix2 r n) := by
  have h0 : ¬t.val % 8 = 0 := by omega
  have hacc := acc1_at V c t.val t.isLt p q r n hr hn
  rw [outsAt1_C V c t (mt (hfirst1 _).mp h0) ((hlast1 _).mpr h1)] at hacc ⊢
  dsimp only at hacc ⊢
  have hacc' : k1_pay2 (xblk1 V c t) (wblk1 V c t) (prev1 V c t) (ix2 p q) = ∑ k : Fin 4096, feat1 V c r n k :=
    ((congrFun (sout1_C_eq (F := Ideal) (args1 V c t) c _ _ _) (ix2 p q)).symm.trans hacc).trans
      ((congrArg (Cert.Spec.prefixSum (feat1 V c r n)) (by omega : t.val % 8 + 1 = 8)).trans (Cert.Spec.prefixSum_eight (feat1 V c r n)))
  refine (congrFun (out1_C_eq (F := Ideal) (args1 V c t) c _ _ _) (ix2 p q)).trans ?_
  refine (pay3_apply (k1_pay2 (xblk1 V c t) (wblk1 V c t) (prev1 V c t)) (rblk1_2 V c t) (rblk1_3 V c t) (rblk1_6 V c t) (rblk1_5 V c t) (rblk1_4 V c t) p q).trans ?_
  rw [hacc', rblk1_2_apply V c t q n hn, rblk1_3_apply V c t q n hn, rblk1_4_apply V c t q n hn, rblk1_5_apply V c t q n hn, rblk1_6_apply V c t q n hn]
  rfl

theorem flushed1_eq (c : Dev nD) (t : Fin cfg1.N) (hf : (cfg1.win 7).flush t = true) :
    (dat1 V c).flushed 7 t = ((cfg1.win 7).blk t).view.read (Elt Ideal) (G1 V c) := by
  have h1 : t.val % 8 = 7 := (flush1_7 t).mp hf
  have hN : t.val < 256 := lt_of_lt_of_eq t.isLt (show cfg1.N = 256 from N_1)
  show (cfg1.win 7).cut (grid1.coords t) ((dat1 V c).after 7 t) = _
  rw [after1_7]
  funext y
  obtain ⟨p, q, rfl⟩ : ∃ (p q : Fin 1024), y = ix2 p q := ⟨y 0, y 1, eq_ix2 y⟩
  exact (out1_at V c t h1 p q ⟨t.val / 32 * 1024 + p.val, by omega⟩ ⟨t.val / 8 % 4 * 1024 + q.val, by omega⟩ rfl rfl).trans
    (oblk1_apply (G1 V c) t p q ⟨t.val / 32 * 1024 + p.val, by omega⟩ ⟨t.val / 8 % 4 * 1024 + q.val, by omega⟩ rfl rfl).symm

theorem cover1 (i : S8192x4096.Idx) :
    ∃ t : Fin cfg1.N, (cfg1.win 7).flush t = true ∧ i ∈ ((cfg1.win 7).blk t).view.set := by
  have hN : cfg1.N = 256 := N_1
  have hi0 : (i 0).val < 8192 := (i 0).isLt
  have hi1 : (i 1).val < 4096 := (i 1).isLt
  obtain ⟨t, ht⟩ : ∃ t : Fin cfg1.N, t.val = ((i 0).val / 1024 * 4 + (i 1).val / 1024) * 8 + 7 :=
    ⟨⟨((i 0).val / 1024 * 4 + (i 1).val / 1024) * 8 + 7, by rw [hN]; omega⟩, rfl⟩
  obtain ⟨e0, e1⟩ := idx1_7 t
  refine ⟨t, (flush1_7 t).mpr (by omega), ?_⟩
  show i ∈ ((View.whole main_v11).slice (win1_7.rect t)).set
  rw [View.set_slice_whole, Rect.mem_set_unit]
  intro a
  match a with
  | ⟨0, _⟩ =>
    show win1_7.index t 0 * 1024 ≤ (i 0).val ∧ (i 0).val < win1_7.index t 0 * 1024 + 1024
    rw [e0]; omega
  | ⟨1, _⟩ =>
    show win1_7.index t 1 * 1024 ≤ (i 1).val ∧ (i 1).val < win1_7.index t 1 * 1024 + 1024
    rw [e1]; omega

theorem layer1_value (c : Dev nD) (r : Fin 8192) (n : Fin 4096) :
    (dat1 V c).arrAt 7 cfg1.N (ValueIdx.ix2 r n)
      = Cert.Spec.sg (Cert.Spec.layer (fun r k => (V c main_v5 : S8192x4096.Idx → EReal) (ix2 r k))
          (fun n k => (V c main_arg7 : S4096x4096.Idx → EReal) (ix2 n k))
          (fun n => (V c main_v6 : S1x4096.Idx → EReal) (ix2 0 n)) (fun n => (V c main_v7 : S1x4096.Idx → EReal) (ix2 0 n))
          (fun n => (V c main_v8 : S1x4096.Idx → EReal) (ix2 0 n)) (fun n => (V c main_v9 : S1x4096.Idx → EReal) (ix2 0 n))
          (fun n => (V c main_v10 : S1x4096.Idx → EReal) (ix2 0 n)) r n) :=
  congrFun ((dat1 V c).arrAt_eq_of_cover 7 (G1 V c) (fun t hf => flushed1_eq V c t hf) cover1) (ix2 r n)

end Cert.KernelIdeal.Gen

end
-- ==== Proof.KI.Val2a.lean ====
import proofs.«141190_j33311766347902_1_alg».proof.Proof.KI.Data2
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)

variable {F : FTy → Type} [FloatOps F] (a : Args2 F) (c : Dev nD)

theorem hz2 : (![0, 0] : Fin 2 → Nat) = fun _ => 0 := funext fun j => by fin_cases j <;> rfl

/-- A first step stores the zero tile, then the step's product added onto it. -/
theorem soutA2_eq (hc0 : first2 a.i) (hc1 : ¬last2 a.i) :
    sout2_A a c hc0 hc1 = k2_pay2 a.x0 a.x1 (k2_pay1 (F := F)) := by
  unfold sout2_A
  rw [View.read_writes_eq_canon _ _ _ (scover2_A a c hc0 hc1)]
  unfold Args2.runA kernelRun2_A
  dsimp only
  sl_unfold_words
  rw [View.canon_cons_unit_zero (S := S1024x1000) hz2, View.readCov_unit_zero (S := S1024x1000) _ hz2]
  simp only [View.readAt_eq_ld, a.h0.read_unread, a.h1.read_unread, View.ld_unit_zero (S := S1024x512) hz2, View.ld_unit_zero (S := S1000x512) hz2]

/-- A middle step adds its product onto what the accumulator held. -/
theorem soutB2_eq (hc0 : ¬first2 a.i) (hc1 : ¬last2 a.i) (xs : Vec F S1024x1000 .f32) :
    sout2_B a c hc0 hc1 xs = k2_pay2 a.x0 a.x1 xs := by
  unfold sout2_B
  rw [View.read_writes_eq_canon _ _ _ (scover2_B a c hc0 hc1 xs)]
  unfold Args2.runB kernelRun2_B
  dsimp only
  sl_unfold_words
  rw [View.canon_unit_zero (S := S1024x1000) hz2]
  simp only [View.readAt_eq_ld, a.h0.read_unread, a.h1.read_unread, a.hacc.read_unread, View.ld_unit_zero (S := S1024x512) hz2, View.ld_unit_zero (S := S1000x512) hz2, View.ld_unit_zero (S := S1024x1000) hz2]

/-- A last step accumulates as a middle step does. -/
theorem soutC2_eq (hc0 : ¬first2 a.i) (hc1 : last2 a.i) (xs : Vec F S1024x1000 .f32) :
    sout2_C a c hc0 hc1 xs = k2_pay2 a.x0 a.x1 xs := by
  unfold sout2_C
  rw [View.read_writes_eq_canon _ _ _ (scover2_C a c hc0 hc1 xs)]
  unfold Args2.runC kernelRun2_C
  dsimp only
  sl_unfold_words
  rw [View.canon_unit_zero (S := S1024x1000) hz2]
  simp only [View.readAt_eq_ld, a.h0.read_unread, a.h1.read_unread, a.hacc.read_unread, View.ld_unit_zero (S := S1024x512) hz2, View.ld_unit_zero (S := S1000x512) hz2, View.ld_unit_zero (S := S1024x1000) hz2]

/-- The stored tile is the bias and normalization applied to the finished accumulator. -/
theorem outC2_eq (hc0 : ¬first2 a.i) (hc1 : last2 a.i) (xs : Vec F S1024x1000 .f32) :
    out2_C a c hc0 hc1 xs = k2_pay3 (k2_pay2 a.x0 a.x1 xs) a.x2 a.x3 a.x6 a.x5 a.x4 := by
  unfold out2_C
  rw [View.read_writes_eq_canon _ _ _ (cover2_C a c hc0 hc1 xs)]
  unfold Args2.runC kernelRun2_C
  dsimp only
  sl_unfold_words
  rw [View.canon_unit_zero (S := S1024x1000) hz2]
  simp only [View.readAt_eq_ld, View.readCov_unit_zero (S := S1024x1000) _ hz2, a.h0.read_unread, a.h1.read_unread, a.h2.read_unread, a.h3.read_unread, a.h4.read_unread, a.h5.read_unread, a.h6.read_unread, a.hacc.read_unread, View.ld_unit_zero (S := S1024x512) hz2, View.ld_unit_zero (S := S1000x512) hz2, View.ld_unit_zero (S := S1024x1000) hz2, View.ld_unit_zero (S := S1x1000) hz2]

end Cert.KernelIdeal.Gen

end
-- ==== Proof.KI.Val2b.lean ====
import proofs.«141190_j33311766347902_1_alg».proof.Proof.Gen.KernelIdeal.Skeleton
import proofs.«141190_j33311766347902_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.SL.Sem
open Idealize.ShloMosaic.ValueIdx

theorem pay1_2_apply (p : Fin 1024) (q : Fin 1000) : (k2_pay1 (F := Ideal)) (ix2 p q) = 0 := by
  unfold k2_pay1
  rw [shapeCast_self]
  exact Ideal.ofBits_zero_f32

theorem lhs_k2_0 (i : S1024x1000.Idx) (k : dot_S1024x512_S1000x512_S1024x1000_1_1_0_0_n_n.contr.Idx) :
    (dot_S1024x512_S1000x512_S1024x1000_1_1_0_0_n_n.lhsIdx i k 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl

theorem lhs_k2_1 (i : S1024x1000.Idx) (k : dot_S1024x512_S1000x512_S1024x1000_1_1_0_0_n_n.contr.Idx) :
    (dot_S1024x512_S1000x512_S1024x1000_1_1_0_0_n_n.lhsIdx i k 1).val = (k ⟨0, by decide⟩).val :=
  dot_S1024x512_S1000x512_S1024x1000_1_1_0_0_n_n.lhsIdx_val_of_single rfl i k

theorem rhs_k2_0 (i : S1024x1000.Idx) (k : dot_S1024x512_S1000x512_S1024x1000_1_1_0_0_n_n.contr.Idx) :
    (dot_S1024x512_S1000x512_S1024x1000_1_1_0_0_n_n.rhsIdx i k 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl

theorem rhs_k2_1 (i : S1024x1000.Idx) (k : dot_S1024x512_S1000x512_S1024x1000_1_1_0_0_n_n.contr.Idx) :
    (dot_S1024x512_S1000x512_S1024x1000_1_1_0_0_n_n.rhsIdx i k 1).val = (k ⟨0, by decide⟩).val :=
  dot_S1024x512_S1000x512_S1024x1000_1_1_0_0_n_n.rhsIdx_val_of_single rfl i k

theorem matmul_k2_apply (a : FVec Ideal S1024x512 .bf16) (b : FVec Ideal S1000x512 .bf16) (p : Fin 1024) (q : Fin 1000) :
    FloatOps.matmul dot_S1024x512_S1000x512_S1024x1000_1_1_0_0_n_n none a b (constant (F := Ideal) S1024x1000 .f32 0x00000000#32) (ix2 p q)
      = ∑ kk : Fin 512, a (ix2 p kk) * b (ix2 q kk) := by
  rw [Ideal.matmul_constant_zero_apply, ← Equiv.sum_comp (contrEquiv1 dot_S1024x512_S1000x512_S1024x1000_1_1_0_0_n_n 512 rfl rfl).symm]
  refine Finset.sum_congr rfl fun kk _ => ?_
  have hk := contrEquiv1_symm_val dot_S1024x512_S1000x512_S1024x1000_1_1_0_0_n_n 512 rfl rfl kk
  have el : dot_S1024x512_S1000x512_S1024x1000_1_1_0_0_n_n.lhsIdx (ix2 p q) ((contrEquiv1 dot_S1024x512_S1000x512_S1024x1000_1_1_0_0_n_n 512 rfl rfl).symm kk) = ix2 p kk := funext fun a => Fin.ext (by
    match a with
    | ⟨0, _⟩ => exact lhs_k2_0 _ _
    | ⟨1, _⟩ => exact (lhs_k2_1 _ _).trans hk)
  have er : dot_S1024x512_S1000x512_S1024x1000_1_1_0_0_n_n.rhsIdx (ix2 p q) ((contrEquiv1 dot_S1024x512_S1000x512_S1024x1000_1_1_0_0_n_n 512 rfl rfl).symm kk) = ix2 q kk := funext fun a => Fin.ext (by
    match a with
    | ⟨0, _⟩ => exact rhs_k2_0 _ _
    | ⟨1, _⟩ => exact (rhs_k2_1 _ _).trans hk)
  rw [el, er]

theorem pay2_2_apply (x : Vec Ideal S1024x512 .bf16) (w : Vec Ideal S1000x512 .f32) (acc : Vec Ideal S1024x1000 .f32)
    (p : Fin 1024) (q : Fin 1000) :
    k2_pay2 x w acc (ix2 p q) = acc (ix2 p q) + ∑ kk : Fin 512, Cert.Spec.sg (x (ix2 p kk)) * Cert.Spec.sg (w (ix2 q kk)) := by
  unfold k2_pay2
  rw [shapeCast_self, shapeCast_self]
  refine (addf_apply _ _ _).trans ?_
  refine congrArg (acc (ix2 p q) + ·) ?_
  refine (matmul_k2_apply _ _ p q).trans ?_
  rfl

theorem bcast_row_apply (v : Vec Ideal S1x1000 .f32) (p : Fin 1024) (q : Fin 1000) :
    broadcastTo S1024x1000 v broadcasts_S1x1000_S1024x1000 (ix2 p q) = v (ix2 0 q) :=
  broadcastTo_apply v broadcasts_S1x1000_S1024x1000 (ix2 p q) (ix2 0 q) (fun a => by
    match a with
    | ⟨0, _⟩ => rfl
    | ⟨1, _⟩ => rfl)

theorem pay3_2_apply (acc : Vec Ideal S1024x1000 .f32) (b g var mu be : Vec Ideal S1x1000 .f32) (p : Fin 1024) (q : Fin 1000) :
    k2_pay3 acc b g var mu be (ix2 p q)
      = Cert.Spec.bn (acc (ix2 p q)) (b (ix2 0 q)) (g (ix2 0 q)) (be (ix2 0 q)) (mu (ix2 0 q)) (var (ix2 0 q)) := by
  unfold k2_pay3 Cert.Spec.bn
  simp only [shapeCast_self]
  refine (addf_apply _ _ _).trans ?_
  refine congr (congrArg HAdd.hAdd ?_) (bcast_row_apply be p q)
  refine (mulf_apply _ _ _).trans ?_
  refine congr (congrArg HMul.hMul ?_) ?_
  · refine (subf_apply _ _ _).trans ?_
    refine congr (congrArg HSub.hSub ?_) (bcast_row_apply mu p q)
    refine (addf_apply _ _ _).trans ?_
    exact congrArg (acc (ix2 p q) + ·) (bcast_row_apply b p q)
  · refine (bcast_row_apply _ p q).trans ?_
    rfl

end Cert.KernelIdeal.Gen

end
-- ==== Proof.KI.Val2c.lean ====
import proofs.«141190_j33311766347902_1_alg».proof.Proof.KI.Data2
import Idealize.ShloMosaic.Lib.Pipeline.Value
import Idealize.ShloMosaic.Lib.ValueIdx

set_option maxRecDepth 16384

noncomputable section

namespace Cert.KernelIdeal.Gen

open Idealize.ShloMosaic Idealize.ShloMosaic.TcCoe
open Idealize.SL.Sem
open Idealize.ShloMosaic.Pipeline (Dat)
open Idealize.ShloMosaic.ValueIdx

theorem idx_facts2 : ∀ t : Fin cfg2.N,
    win2_0.index t (0 : Fin 2) = t.val / 8 ∧ win2_0.index t (1 : Fin 2) = t.val % 8
    ∧ win2_1.index t (0 : Fin 2) = 0 ∧ win2_1.index t (1 : Fin 2) = t.val % 8
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 8 ∧ win2_7.index t (1 : Fin 2) = 0 :=
  (by decide +kernel : ∀ t : Fin grid2.N, _)

variable {F : FTy → Type} [FloatOps F]

section Blocks
variable (V : (c : Dev nD) → (b : Ref sig .tc) → Buf (Elt F) ((c : Thread nD τ).loc b))

abbrev xarr2 (c : Dev nD) : Vec F S8192x4096 .bf16 := V c main_v11
abbrev warr2 (c : Dev nD) : Vec F S1000x4096 .f32 := V c main_arg13
abbrev barr2 (c : Dev nD) : Vec F S1x1000 .f32 := V c main_v12
abbrev garr2 (c : Dev nD) : Vec F S1x1000 .f32 := V c main_v13
abbrev searr2 (c : Dev nD) : Vec F S1x1000 .f32 := V c main_v14
abbrev muarr2 (c : Dev nD) : Vec F S1x1000 .f32 := V c main_v15
abbrev vaarr2 (c : Dev nD) : Vec F S1x1000 .f32 := V c main_v16

abbrev xblk2 (c : Dev nD) (t : Fin cfg2.N) : Vec F S1024x512 .bf16 := iblk2 V c 0 t
abbrev wblk2 (c : Dev nD) (t : Fin cfg2.N) : Vec F S1000x512 .f32 := iblk2 V c 1 t
abbrev bblk2 (c : Dev nD) (t : Fin cfg2.N) : Vec F S1x1000 .f32 := iblk2 V c 2 t
abbrev gblk2 (c : Dev nD) (t : Fin cfg2.N) : Vec F S1x1000 .f32 := iblk2 V c 3 t
abbrev seblk2 (c : Dev nD) (t : Fin cfg2.N) : Vec F S1x1000 .f32 := iblk2 V c 4 t
abbrev mublk2 (c : Dev nD) (t : Fin cfg2.N) : Vec F S1x1000 .f32 := iblk2 V c 5 t
abbrev vablk2 (c : Dev nD) (t : Fin cfg2.N) : Vec F S1x1000 .f32 := iblk2 V c 6 t

theorem xblk2_apply (c : Dev nD) (t : Fin cfg2.N) (p : Fin 1024) (kk : Fin 512) (r : Fin 8192) (k : Fin 4096)
    (hr : r.val = t.val / 8 * 1024 + p.val) (hk : k.val = t.val % 8 * 512 + kk.val) :
    xblk2 V c t (ix2 p kk) = xarr2 V c (ix2 r k) := by
  obtain ⟨e0, e1, -⟩ := idx_facts2 t
  unfold xblk2 xarr2 iblk2
  rw [View.read_apply]
  show V c main_v11 _ = V c main_v11 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 512 + 1 * kk.val = k.val; rw [e1, hk]; omega

theorem wblk2_apply (c : Dev nD) (t : Fin cfg2.N) (q : Fin 1000) (kk : Fin 512) (k : Fin 4096)
    (hk : k.val = t.val % 8 * 512 + kk.val) :
    wblk2 V c t (ix2 q kk) = warr2 V c (ix2 q k) := by
  obtain ⟨-, -, e0, e1, -⟩ := idx_facts2 t
  unfold wblk2 warr2 iblk2
  rw [View.read_apply]
  show V c main_arg13 _ = V c main_arg13 _
  congr 1
  funext a
  apply Fin.ext
  match a with
  | ⟨0, _⟩ => show win2_1.index t (0 : Fin 2) * 1000 + 1 * q.val = q.val; rw [e0]; omega
  | ⟨1, _⟩ => show win2_1.index t (1 : Fin 2) * 512 + 1 * kk.val = k.val; rw [e1, hk]; omega

theorem bblk2_apply (c : Dev nD) (t : Fin cfg2.N) (q : Fin 1000) :
    bblk2 V c t (ix2 (0 : Fin 1) q) = barr2 V c (ix2 (0 : Fin 1) q) := by
  obtain ⟨-, -, -, -, e0, e1, -⟩ := idx_facts2 t
  unfold bblk2 barr2 iblk2
  rw [View.read_apply]
  show V c main_v12 _ = V c main_v12 _
  congr 1
  funext a
  apply Fin.ext
  match a with
  | ⟨0, _⟩ => show win2_2.index t (0 : Fin 2) * 1 + 1 * 0 = 0; rw [e0]
  | ⟨1, _⟩ => show win2_2.index t (1 : Fin 2) * 1000 + 1 * q.val = q.val; rw [e1]; omega

theorem gblk2_apply (c : Dev nD) (t : Fin cfg2.N) (q : Fin 1000) :
    gblk2 V c t (ix2 (0 : Fin 1) q) = garr2 V c (ix2 (0 : Fin 1) q) := by
  obtain ⟨-, -, -, -, -, -, e0, e1, -⟩ := idx_facts2 t
  unfold gblk2 garr2 iblk2
  rw [View.read_apply]
  show V c main_v13 _ = V c main_v13 _
  congr 1
  funext a
  apply Fin.ext
  match a with
  | ⟨0, _⟩ => show win2_3.index t (0 : Fin 2) * 1 + 1 * 0 = 0; rw [e0]
  | ⟨1, _⟩ => show win2_3.index t (1 : Fin 2) * 1000 + 1 * q.val = q.val; rw [e1]; omega

theorem seblk2_apply (c : Dev nD) (t : Fin cfg2.N) (q : Fin 1000) :
    seblk2 V c t (ix2 (0 : Fin 1) q) = searr2 V c (ix2 (0 : Fin 1) q) := by
  obtain ⟨-, -, -, -, -, -, -, -, e0, e1, -⟩ := idx_facts2 t
  unfold seblk2 searr2 iblk2
  rw [View.read_apply]
  show V c main_v14 _ = V c main_v14 _
  congr 1
  funext a
  apply Fin.ext
  match a with
  | ⟨0, _⟩ => show win2_4.index t (0 : Fin 2) * 1 + 1 * 0 = 0; rw [e0]
  | ⟨1, _⟩ => show win2_4.index t (1 : Fin 2) * 1000 + 1 * q.val = q.val; rw [e1]; omega

theorem mublk2_apply (c : Dev nD) (t : Fin cfg2.N) (q : Fin 1000) :
    mublk2 V c t (ix2 (0 : Fin 1) q) = muarr2 V c (ix2 (0 : Fin 1) q) := by
  obtain ⟨-, -, -, -, -, -, -, -, -, -, e0, e1, -⟩ := idx_facts2 t
  unfold mublk2 muarr2 iblk2
  rw [View.read_apply]
  show V c main_v15 _ = V c main_v15 _
  congr 1
  funext a
  apply Fin.ext
  match a with
  | ⟨0, _⟩ => show win2_5.index t (0 : Fin 2) * 1 + 1 * 0 = 0; rw [e0]
  | ⟨1, _⟩ => show win2_5.index t (1 : Fin 2) * 1000 + 1 * q.val = q.val; rw [e1]; omega

theorem vablk2_apply (c : Dev nD) (t : Fin cfg2.N) (q : Fin 1000) :
    vablk2 V c t (ix2 (0 : Fin 1) q) = vaarr2 V c (ix2 (0 : Fin 1) q) := by
  obtain ⟨-, -, -, -, -, -, -, -, -, -, -, -, e0, e1, -⟩ := idx_facts2 t
  unfold vablk2 vaarr2 iblk2
  rw [View.read_apply]
  show V c main_v16 _ = V c main_v16 _
  congr 1
  funext a
  apply Fin.ext
  match a with
  | ⟨0, _⟩ => show win2_6.index t (0 : Fin 2) * 1 + 1 * 0 = 0; rw [e0]
  | ⟨1, _⟩ => show win2_6.index t (1 : Fin 2) * 1000 + 1 * q.val = q.val; rw [e1]; omega

end Blocks

end Cert.KernelIdeal.Gen

end
-- ==== Proof.KI.Val2.lean ====
import proofs.«141190_j33311766347902_1_alg».proof.Proof.KI.Val2a
import proofs.«141190_j33311766347902_1_alg».proof.Proof.KI.Val2b
import proofs.«141190_j33311766347902_1_alg».proof.Proof.KI.Val2c
import proofs.«141190_j33311766347902_1_alg».proof.Proof.Spec
import proofs.«141190_j33311766347902_1_alg».proof.Proof.SpecAlg
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat)
open Idealize.ShloMosaic.ValueIdx

section Value
variable (V : (c : Dev nD) → (b : Ref sig .tc) → Buf (Elt Ideal) ((c : Thread nD τ).loc b))

def feat2 (c : Dev nD) (r : Fin 8192) (n : Fin 1000) : Fin 4096 → EReal :=
  fun k => Cert.Spec.sg (xarr2 V c (ix2 r k)) * Cert.Spec.sg (warr2 V c (ix2 n k))

def row2 (n : ℕ) (hn : n < cfg2.N) (p : Fin 1024) : Fin 8192 :=
  ⟨n / 8 * 1024 + p.val, by have hN : cfg2.N = 64 := N_2; have := p.isLt; omega⟩

theorem step_sum2 (c : Dev nD) (n : ℕ) (hn : n < cfg2.N) (p : Fin 1024) (q : Fin 1000) :
    (∑ kk : Fin 512, Cert.Spec.sg (xblk2 V c ⟨n, hn⟩ (ix2 p kk)) * Cert.Spec.sg (wblk2 V c ⟨n, hn⟩ (ix2 q kk)))
      = ∑ kk : Fin 512, feat2 V c (row2 n hn p) q ⟨n % 8 * 512 + kk.val, by have := kk.isLt; omega⟩ := by
  refine Finset.sum_congr rfl fun kk _ => ?_
  unfold feat2
  rw [xblk2_apply V c ⟨n, hn⟩ p kk (row2 n hn p) ⟨n % 8 * 512 + kk.val, by have := kk.isLt; omega⟩ rfl rfl,
    wblk2_apply V c ⟨n, hn⟩ q kk ⟨n % 8 * 512 + kk.val, by have := kk.isLt; omega⟩ rfl]

theorem acc2_eq (c : Dev nD) : ∀ (n : ℕ) (hn : n < cfg2.N) (p : Fin 1024) (q : Fin 1000),
    ((outsAt2 V c n hn).2 : Vec Ideal S1024x1000 .f32) (ix2 p q)
      = Cert.Spec.prefixSum (feat2 V c (row2 n hn p) q) (n % 8 + 1) := by
  intro n
  induction n using Nat.strong_induction_on with
  | _ n ih =>
    intro hn p q
    have hN : cfg2.N = 64 := N_2
    rw [Cert.Spec.prefixSum_succ _ (n % 8) (Nat.mod_lt _ (by decide)), ← step_sum2 V c n hn p q]
    by_cases h0 : n % 8 = 0
    · have h1 : ¬n % 8 = 7 := by omega
      rw [outsAt2_A V c ⟨n, hn⟩ ((hfirst2 _).mpr h0)]
      dsimp only
      refine (congrFun (soutA2_eq (F := Ideal) (args2 V c ⟨n, hn⟩) c _ _) (ix2 p q)).trans ?_
      rw [pay2_2_apply, pay1_2_apply, h0, Cert.Spec.prefixSum_zero]
    · have hrow : row2 (n - 1) (by omega) p = row2 n hn p := Fin.ext (by unfold row2; show (n - 1) / 8 * 1024 + p.val = n / 8 * 1024 + p.val; omega)
      have hih := ih (n - 1) (by omega) (by omega) p q
      rw [hrow, show (n - 1) % 8 + 1 = n % 8 from by omega] at hih
      by_cases h1 : n % 8 = 7
      · rw [outsAt2_C V c ⟨n, hn⟩ (mt (hfirst2 _).mp h0) ((hlast2 _).mpr h1)]
        dsimp only
        refine (congrFun (soutC2_eq (F := Ideal) (args2 V c ⟨n, hn⟩) c _ _ (outsAt2 V c (n - 1) (by omega)).2) (ix2 p q)).trans ?_
        rw [pay2_2_apply, hih]
      · rw [outsAt2_B V c ⟨n, hn⟩ (mt (hfirst2 _).mp h0) (mt (hlast2 _).mp h1)]
        dsimp only
        refine (congrFun (soutB2_eq (F := Ideal) (args2 V c ⟨n, hn⟩) c _ _ (outsAt2 V c (n - 1) (by omega)).2) (ix2 p q)).trans ?_
        rw [pay2_2_apply, hih]

def G2 (c : Dev nD) : Vec Ideal S8192x1000 .f32 := fun i =>
  Cert.Spec.layer (fun r k => xarr2 V c (ix2 r k)) (fun n k => warr2 V c (ix2 n k)) (fun n => barr2 V c (ix2 (0 : Fin 1) n)) (fun n => garr2 V c (ix2 (0 : Fin 1) n)) (fun n => searr2 V c (ix2 (0 : Fin 1) n)) (fun n => muarr2 V c (ix2 (0 : Fin 1) n)) (fun n => vaarr2 V c (ix2 (0 : Fin 1) n)) ⟨(i 0).val, idx2_lt0 i⟩ ⟨(i 1).val, idx2_lt1 i⟩

theorem tile2_eq (c : Dev nD) (n : ℕ) (hn : n < cfg2.N) (h0 : ¬n % 8 = 0) (h1 : n % 8 = 7) (p : Fin 1024) (q : Fin 1000) :
    ((outsAt2 V c n hn).1 : Vec Ideal S1024x1000 .f32) (ix2 p q) = G2 V c (ix2 (row2 n hn p) q) := by
  have hN : cfg2.N = 64 := N_2
  have hacc := acc2_eq V c n hn p q
  rw [h1, Cert.Spec.prefixSum_eight] at hacc
  rw [outsAt2_C V c ⟨n, hn⟩ (mt (hfirst2 _).mp h0) ((hlast2 _).mpr h1)] at hacc ⊢
  dsimp only at hacc ⊢
  have hacc' := (congrFun (soutC2_eq (F := Ideal) (args2 V c ⟨n, hn⟩) c _ _ _) (ix2 p q)).symm.trans hacc
  refine (congrFun (outC2_eq (F := Ideal) (args2 V c ⟨n, hn⟩) c _ _ _) (ix2 p q)).trans ?_
  rw [pay3_2_apply, hacc']
  show Cert.Spec.bn _ (bblk2 V c ⟨n, hn⟩ (ix2 0 q)) (gblk2 V c ⟨n, hn⟩ (ix2 0 q)) (seblk2 V c ⟨n, hn⟩ (ix2 0 q)) (mublk2 V c ⟨n, hn⟩ (ix2 0 q)) (vablk2 V c ⟨n, hn⟩ (ix2 0 q)) = _
  rw [bblk2_apply, gblk2_apply, seblk2_apply, mublk2_apply, vablk2_apply]
  rfl

theorem flushed2_eq (c : Dev nD) (t : Fin cfg2.N) (hf : (cfg2.win 7).flush t = true) :
    (dat2 V c).flushed 7 t = ((cfg2.win 7).blk t).view.read (Elt Ideal) (G2 V c) := by
  have h1 : t.val % 8 = 7 := (flush2_7 t).mp hf
  have h0 : ¬t.val % 8 = 0 := by omega
  obtain ⟨-, -, -, -, -, -, -, -, -, -, -, -, -, -, e0, e1⟩ := idx_facts2 t
  have key : ((outsAt2 V c t.val t.isLt).1 : Vec Ideal S1024x1000 .f32)
      = fun y : S1024x1000.Idx => G2 V c (ix2 (row2 t.val t.isLt ⟨(y 0).val, idx2_lt0 y⟩) (⟨(y 1).val, idx2_lt1 y⟩ : Fin 1000)) := by
    funext y
    obtain ⟨p, q, rfl⟩ : ∃ (p : Fin 1024) (q : Fin 1000), y = ix2 p q := ⟨y 0, y 1, eq_ix2 y⟩
    exact tile2_eq V c t.val t.isLt h0 h1 p q
  show (cfg2.win 7).cut (grid2.coords t) ((dat2 V c).after 7 t) = _
  rw [after2_7, key]
  funext j
  rw [View.read_apply]
  show G2 V c _ = G2 V c _
  congr 1
  funext a
  apply Fin.ext
  match a with
  | ⟨0, _⟩ => show t.val / 8 * 1024 + (j 0).val = win2_7.index t (0 : Fin 2) * 1024 + 1 * (j 0).val; rw [e0]; omega
  | ⟨1, _⟩ => show (j 1).val = win2_7.index t (1 : Fin 2) * 1000 + 1 * (j 1).val; rw [e1]; omega

theorem cover2 (i : S8192x1000.Idx) :
    ∃ t : Fin cfg2.N, (cfg2.win 7).flush t = true ∧ i ∈ ((cfg2.win 7).blk t).view.set := by
  have hN : cfg2.N = 64 := N_2
  have hi0 : (i 0).val < 8192 := idx2_lt0 i
  have hi1 : (i 1).val < 1000 := idx2_lt1 i
  let t : Fin cfg2.N := ⟨(i 0).val / 1024 * 8 + 7, by omega⟩
  have ht : t.val = (i 0).val / 1024 * 8 + 7 := rfl
  obtain ⟨-, -, -, -, -, -, -, -, -, -, -, -, -, -, e0, e1⟩ := idx_facts2 t
  refine ⟨t, (flush2_7 t).mpr (by rw [ht]; omega), ?_⟩
  show i ∈ ((View.whole main_v17).slice (win2_7.rect t)).set
  rw [View.set_slice_whole, Rect.mem_set_unit]
  intro a
  match a with
  | ⟨0, _⟩ => show win2_7.index t (0 : Fin 2) * 1024 ≤ (i 0).val ∧ (i 0).val < win2_7.index t (0 : Fin 2) * 1024 + 1024; rw [e0, ht]; omega
  | ⟨1, _⟩ => show win2_7.index t (1 : Fin 2) * 1000 ≤ (i 1).val ∧ (i 1).val < win2_7.index t (1 : Fin 2) * 1000 + 1000; rw [e1]; omega

theorem final2 (c : Dev nD) : (dat2 V c).arrAt 7 cfg2.N = G2 V c :=
  (dat2 V c).arrAt_eq_of_cover 7 (G2 V c) (fun t hf => flushed2_eq V c t hf) cover2

end Value

theorem layer2_value (V : (c : Dev nD) → (b : Ref sig .tc) → Buf (Elt Ideal) ((c : Thread nD τ).loc b)) (c : Dev nD) (r : Fin 8192) (n : Fin 1000) :
    ((dat2 V c).arrAt 7 cfg2.N : S8192x1000.Idx → EReal) (ix2 r n)
      = Cert.Spec.layer (fun r k => (V c main_v11 : S8192x4096.Idx → EReal) (ix2 r k)) (fun n k => (V c main_arg13 : S1000x4096.Idx → EReal) (ix2 n k))
          (fun n => (V c main_v12 : S1x1000.Idx → EReal) (ix2 (0 : Fin 1) n)) (fun n => (V c main_v13 : S1x1000.Idx → EReal) (ix2 (0 : Fin 1) n))
          (fun n => (V c main_v14 : S1x1000.Idx → EReal) (ix2 (0 : Fin 1) n)) (fun n => (V c main_v15 : S1x1000.Idx → EReal) (ix2 (0 : Fin 1) n))
          (fun n => (V c main_v16 : S1x1000.Idx → EReal) (ix2 (0 : Fin 1) n)) r n :=
  congrFun (final2 V c) (ix2 r n)

end Cert.KernelIdeal.Gen

end
-- ==== Proof.KI.Bridge.lean ====
import proofs.«141190_j33311766347902_1_alg».proof.Proof.KI.Regions
import proofs.«141190_j33311766347902_1_alg».proof.Proof.KI.Val0
import proofs.«141190_j33311766347902_1_alg».proof.Proof.KI.Val1
import proofs.«141190_j33311766347902_1_alg».proof.Proof.KI.Val2
import Idealize.ShloMosaic.Lib.StableHlo.Run
import Idealize.ShloMosaic.Lib.ValueLayout

noncomputable section

namespace Cert.KernelIdeal.Gen

open Idealize.ShloMosaic Idealize.ShloMosaic.TcCoe Idealize.SL.Sem Idealize.ShloMosaic.StableHlo Idealize.ShloMosaic.ValueIdx

variable (m : (ℓ : Loc nD τ sig) → Buf (Elt Ideal) ℓ)

theorem E1_of (c : Dev nD) (a : Ref sig .tc) (h : a ∉ hostOps0_W) : E1 m c a = m ((c : Thread nD τ).loc a) :=
  (V1_of m c a h).trans rfl
theorem U2_of (c : Dev nD) (a : Ref sig .tc) (h5 : a ∉ ([main_v5] : List (Ref sig .tc))) (h : a ∉ hostOps0_W) :
    U2 m c (Proc.devRef .tc a) = m ((c : Thread nD τ).loc a) := by
  rw [← V2_eq]; exact (V2_of m (outsOf m) c a h5).trans ((V1_of m c a h).trans rfl)
theorem E3_of (c : Dev nD) (a : Ref sig .tc) (h1 : a ∉ hostOps1_W) (h5 : a ∉ ([main_v5] : List (Ref sig .tc))) (h : a ∉ hostOps0_W) :
    E3 m c a = m ((c : Thread nD τ).loc a) := by
  show E3v m c (Proc.devRef .tc a) = _
  rw [← V3_eq]; exact (V3_of m (outsOf m) c a h1).trans ((V2_of m (outsOf m) c a h5).trans ((V1_of m c a h).trans rfl))
theorem U4_of (c : Dev nD) (a : Ref sig .tc) (h11 : a ∉ ([main_v11] : List (Ref sig .tc))) (h1 : a ∉ hostOps1_W) (h5 : a ∉ ([main_v5] : List (Ref sig .tc))) (h : a ∉ hostOps0_W) :
    U4 m c (Proc.devRef .tc a) = m ((c : Thread nD τ).loc a) := by
  rw [← V4_eq]; exact (V4_of m (outsOf m) c a h11).trans ((V3_of m (outsOf m) c a h1).trans ((V2_of m (outsOf m) c a h5).trans ((V1_of m c a h).trans rfl)))
theorem E5_of (c : Dev nD) (a : Ref sig .tc) (h2 : a ∉ hostOps2_W) (h11 : a ∉ ([main_v11] : List (Ref sig .tc))) (h1 : a ∉ hostOps1_W) (h5 : a ∉ ([main_v5] : List (Ref sig .tc))) (h : a ∉ hostOps0_W) :
    E5 m c a = m ((c : Thread nD τ).loc a) := by
  show E5v m c (Proc.devRef .tc a) = _
  rw [← V5_eq]; exact (V5_of m (outsOf m) c a h2).trans ((V4_of m (outsOf m) c a h11).trans ((V3_of m (outsOf m) c a h1).trans ((V2_of m (outsOf m) c a h5).trans ((V1_of m c a h).trans rfl))))

theorem E3_v5 (c : Dev nD) : E3 m c main_v5 = res1 m c := by
  show E3v m c (Proc.devRef .tc main_v5) = _
  rw [← V3_eq, V3_of m (outsOf m) c main_v5 (by decide), V2_eq]; unfold U2; exact Function.update_self _ _ _
theorem E5_v11 (c : Dev nD) : E5 m c main_v11 = res2 m c := by
  show E5v m c (Proc.devRef .tc main_v11) = _
  rw [← V5_eq, V5_of m (outsOf m) c main_v11 (by decide), V4_eq]; unfold U4; exact Function.update_self _ _ _

theorem E1_main_v0 (c : Dev nD) (n : Fin 4096) : (E1 m c main_v0 : S1x4096.Idx → EReal) (ix2 0 n) = (m ((c : Thread nD τ).loc main_arg2) : S4096.Idx → EReal) (ix1 n) := by
  have e : (E1 m c main_v0 : S1x4096.Idx → EReal) = shapeCast S1x4096 (V0 m c (Proc.devRef .tc main_arg2) : S4096.Idx → EReal) shapeCasts_S4096_S1x4096 := by
    show StableHlo.after hostOps0 (V0 m c) (Proc.devRef .tc main_v0) = _
    after_results
    rfl
  rw [e]; exact shapeCast_a_1a_apply _ _ 0 n
theorem E1_main_v1 (c : Dev nD) (n : Fin 4096) : (E1 m c main_v1 : S1x4096.Idx → EReal) (ix2 0 n) = (m ((c : Thread nD τ).loc main_arg3) : S4096.Idx → EReal) (ix1 n) := by
  have e : (E1 m c main_v1 : S1x4096.Idx → EReal) = shapeCast S1x4096 (V0 m c (Proc.devRef .tc main_arg3) : S4096.Idx → EReal) shapeCasts_S4096_S1x4096 := by
    show StableHlo.after hostOps0 (V0 m c) (Proc.devRef .tc main_v1) = _
    after_results
    rfl
  rw [e]; exact shapeCast_a_1a_apply _ _ 0 n
theorem E1_main_v2 (c : Dev nD) (n : Fin 4096) : (E1 m c main_v2 : S1x4096.Idx → EReal) (ix2 0 n) = (m ((c : Thread nD τ).loc main_arg4) : S4096.Idx → EReal) (ix1 n) := by
  have e : (E1 m c main_v2 : S1x4096.Idx → EReal) = shapeCast S1x4096 (V0 m c (Proc.devRef .tc main_arg4) : S4096.Idx → EReal) shapeCasts_S4096_S1x4096 := by
    show StableHlo.after hostOps0 (V0 m c) (Proc.devRef .tc main_v2) = _
    after_results
    rfl
  rw [e]; exact shapeCast_a_1a_apply _ _ 0 n
theorem E1_main_v3 (c : Dev nD) (n : Fin 4096) : (E1 m c main_v3 : S1x4096.Idx → EReal) (ix2 0 n) = (m ((c : Thread nD τ).loc main_arg5) : S4096.Idx → EReal) (ix1 n) := by
  have e : (E1 m c main_v3 : S1x4096.Idx → EReal) = shapeCast S1x4096 (V0 m c (Proc.devRef .tc main_arg5) : S4096.Idx → EReal) shapeCasts_S4096_S1x4096 := by
    show StableHlo.after hostOps0 (V0 m c) (Proc.devRef .tc main_v3) = _
    after_results
    rfl
  rw [e]; exact shapeCast_a_1a_apply _ _ 0 n
theorem E1_main_v4 (c : Dev nD) (n : Fin 4096) : (E1 m c main_v4 : S1x4096.Idx → EReal) (ix2 0 n) = (m ((c : Thread nD τ).loc main_arg6) : S4096.Idx → EReal) (ix1 n) := by
  have e : (E1 m c main_v4 : S1x4096.Idx → EReal) = shapeCast S1x4096 (V0 m c (Proc.devRef .tc main_arg6) : S4096.Idx → EReal) shapeCasts_S4096_S1x4096 := by
    show StableHlo.after hostOps0 (V0 m c) (Proc.devRef .tc main_v4) = _
    after_results
    rfl
  rw [e]; exact shapeCast_a_1a_apply _ _ 0 n

theorem E3_main_v6 (c : Dev nD) (n : Fin 4096) : (E3 m c main_v6 : S1x4096.Idx → EReal) (ix2 0 n) = (m ((c : Thread nD τ).loc main_arg8) : S4096.Idx → EReal) (ix1 n) := by
  have e : (E3 m c main_v6 : S1x4096.Idx → EReal) = shapeCast S1x4096 (U2 m c (Proc.devRef .tc main_arg8) : S4096.Idx → EReal) shapeCasts_S4096_S1x4096 := by
    show StableHlo.after hostOps1 (U2 m c) (Proc.devRef .tc main_v6) = _
    after_results
    rfl
  rw [e, U2_of m c main_arg8 (by decide) (by decide)]; exact shapeCast_a_1a_apply _ _ 0 n
theorem E3_main_v7 (c : Dev nD) (n : Fin 4096) : (E3 m c main_v7 : S1x4096.Idx → EReal) (ix2 0 n) = (m ((c : Thread nD τ).loc main_arg9) : S4096.Idx → EReal) (ix1 n) := by
  have e : (E3 m c main_v7 : S1x4096.Idx → EReal) = shapeCast S1x4096 (U2 m c (Proc.devRef .tc main_arg9) : S4096.Idx → EReal) shapeCasts_S4096_S1x4096 := by
    show StableHlo.after hostOps1 (U2 m c) (Proc.devRef .tc main_v7) = _
    after_results
    rfl
  rw [e, U2_of m c main_arg9 (by decide) (by decide)]; exact shapeCast_a_1a_apply _ _ 0 n
theorem E3_main_v8 (c : Dev nD) (n : Fin 4096) : (E3 m c main_v8 : S1x4096.Idx → EReal) (ix2 0 n) = (m ((c : Thread nD τ).loc main_arg10) : S4096.Idx → EReal) (ix1 n) := by
  have e : (E3 m c main_v8 : S1x4096.Idx → EReal) = shapeCast S1x4096 (U2 m c (Proc.devRef .tc main_arg10) : S4096.Idx → EReal) shapeCasts_S4096_S1x4096 := by
    show StableHlo.after hostOps1 (U2 m c) (Proc.devRef .tc main_v8) = _
    after_results
    rfl
  rw [e, U2_of m c main_arg10 (by decide) (by decide)]; exact shapeCast_a_1a_apply _ _ 0 n
theorem E3_main_v9 (c : Dev nD) (n : Fin 4096) : (E3 m c main_v9 : S1x4096.Idx → EReal) (ix2 0 n) = (m ((c : Thread nD τ).loc main_arg11) : S4096.Idx → EReal) (ix1 n) := by
  have e : (E3 m c main_v9 : S1x4096.Idx → EReal) = shapeCast S1x4096 (U2 m c (Proc.devRef .tc main_arg11) : S4096.Idx → EReal) shapeCasts_S4096_S1x4096 := by
    show StableHlo.after hostOps1 (U2 m c) (Proc.devRef .tc main_v9) = _
    after_results
    rfl
  rw [e, U2_of m c main_arg11 (by decide) (by decide)]; exact shapeCast_a_1a_apply _ _ 0 n
theorem E3_main_v10 (c : Dev nD) (n : Fin 4096) : (E3 m c main_v10 : S1x4096.Idx → EReal) (ix2 0 n) = (m ((c : Thread nD τ).loc main_arg12) : S4096.Idx → EReal) (ix1 n) := by
  have e : (E3 m c main_v10 : S1x4096.Idx → EReal) = shapeCast S1x4096 (U2 m c (Proc.devRef .tc main_arg12) : S4096.Idx → EReal) shapeCasts_S4096_S1x4096 := by
    show StableHlo.after hostOps1 (U2 m c) (Proc.devRef .tc main_v10) = _
    after_results
    rfl
  rw [e, U2_of m c main_arg12 (by decide) (by decide)]; exact shapeCast_a_1a_apply _ _ 0 n

theorem E5_main_v12 (c : Dev nD) (n : Fin 1000) : (E5 m c main_v12 : S1x1000.Idx → EReal) (ix2 0 n) = (m ((c : Thread nD τ).loc main_arg14) : S1000.Idx → EReal) (ix1 n) := by
  have e : (E5 m c main_v12 : S1x1000.Idx → EReal) = shapeCast S1x1000 (U4 m c (Proc.devRef .tc main_arg14) : S1000.Idx → EReal) shapeCasts_S1000_S1x1000 := by
    show StableHlo.after hostOps2 (U4 m c) (Proc.devRef .tc main_v12) = _
    after_results
    rfl
  rw [e, U4_of m c main_arg14 (by decide) (by decide) (by decide) (by decide)]; exact shapeCast_a_1a_apply _ _ 0 n
theorem E5_main_v13 (c : Dev nD) (n : Fin 1000) : (E5 m c main_v13 : S1x1000.Idx → EReal) (ix2 0 n) = (m ((c : Thread nD τ).loc main_arg15) : S1000.Idx → EReal) (ix1 n) := by
  have e : (E5 m c main_v13 : S1x1000.Idx → EReal) = shapeCast S1x1000 (U4 m c (Proc.devRef .tc main_arg15) : S1000.Idx → EReal) shapeCasts_S1000_S1x1000 := by
    show StableHlo.after hostOps2 (U4 m c) (Proc.devRef .tc main_v13) = _
    after_results
    rfl
  rw [e, U4_of m c main_arg15 (by decide) (by decide) (by decide) (by decide)]; exact shapeCast_a_1a_apply _ _ 0 n
theorem E5_main_v14 (c : Dev nD) (n : Fin 1000) : (E5 m c main_v14 : S1x1000.Idx → EReal) (ix2 0 n) = (m ((c : Thread nD τ).loc main_arg16) : S1000.Idx → EReal) (ix1 n) := by
  have e : (E5 m c main_v14 : S1x1000.Idx → EReal) = shapeCast S1x1000 (U4 m c (Proc.devRef .tc main_arg16) : S1000.Idx → EReal) shapeCasts_S1000_S1x1000 := by
    show StableHlo.after hostOps2 (U4 m c) (Proc.devRef .tc main_v14) = _
    after_results
    rfl
  rw [e, U4_of m c main_arg16 (by decide) (by decide) (by decide) (by decide)]; exact shapeCast_a_1a_apply _ _ 0 n
theorem E5_main_v15 (c : Dev nD) (n : Fin 1000) : (E5 m c main_v15 : S1x1000.Idx → EReal) (ix2 0 n) = (m ((c : Thread nD τ).loc main_arg17) : S1000.Idx → EReal) (ix1 n) := by
  have e : (E5 m c main_v15 : S1x1000.Idx → EReal) = shapeCast S1x1000 (U4 m c (Proc.devRef .tc main_arg17) : S1000.Idx → EReal) shapeCasts_S1000_S1x1000 := by
    show StableHlo.after hostOps2 (U4 m c) (Proc.devRef .tc main_v15) = _
    after_results
    rfl
  rw [e, U4_of m c main_arg17 (by decide) (by decide) (by decide) (by decide)]; exact shapeCast_a_1a_apply _ _ 0 n
theorem E5_main_v16 (c : Dev nD) (n : Fin 1000) : (E5 m c main_v16 : S1x1000.Idx → EReal) (ix2 0 n) = (m ((c : Thread nD τ).loc main_arg18) : S1000.Idx → EReal) (ix1 n) := by
  have e : (E5 m c main_v16 : S1x1000.Idx → EReal) = shapeCast S1x1000 (U4 m c (Proc.devRef .tc main_arg18) : S1000.Idx → EReal) shapeCasts_S1000_S1x1000 := by
    show StableHlo.after hostOps2 (U4 m c) (Proc.devRef .tc main_v16) = _
    after_results
    rfl
  rw [e, U4_of m c main_arg18 (by decide) (by decide) (by decide) (by decide)]; exact shapeCast_a_1a_apply _ _ 0 n

theorem layer_congr {M K N : Nat} {h h' : Fin M → Fin K → EReal} {W W' : Fin N → Fin K → EReal} {b b' g g' be be' mu mu' var var' : Fin N → EReal}
    (e1 : h = h') (e2 : W = W') (e3 : b = b') (e4 : g = g') (e5 : be = be') (e6 : mu = mu') (e7 : var = var') (r : Fin M) (n : Fin N) :
    Cert.Spec.layer h W b g be mu var r n = Cert.Spec.layer h' W' b' g' be' mu' var' r n := by
  subst e1 e2 e3 e4 e5 e6 e7; rfl

theorem res1_value (c : Dev nD) (r : Fin 8192) (k : Fin 4096) :
    (res1 m c : S8192x4096.Idx → EReal) (ix2 r k) = Cert.Spec.sg (Cert.Spec.layer (fun r k => Cert.Spec.quant ((m ((c : Thread nD τ).loc main_arg0) : S8192x4096.Idx → EReal) (ix2 r k))) (fun n k => (m ((c : Thread nD τ).loc main_arg1) : S4096x4096.Idx → EReal) (ix2 n k)) (fun n => (m ((c : Thread nD τ).loc main_arg2) : S4096.Idx → EReal) (ix1 n)) (fun n => (m ((c : Thread nD τ).loc main_arg3) : S4096.Idx → EReal) (ix1 n)) (fun n => (m ((c : Thread nD τ).loc main_arg4) : S4096.Idx → EReal) (ix1 n)) (fun n => (m ((c : Thread nD τ).loc main_arg5) : S4096.Idx → EReal) (ix1 n)) (fun n => (m ((c : Thread nD τ).loc main_arg6) : S4096.Idx → EReal) (ix1 n)) r k) := by
  refine (layer0_value (E1 m) c r k).trans (congrArg Cert.Spec.sg (layer_congr ?_ ?_ ?_ ?_ ?_ ?_ ?_ r k))
  · funext r k; exact congrArg Cert.Spec.quant (congrFun (E1_of m c main_arg0 (by decide)) (ix2 r k))
  · funext n k; exact congrFun (E1_of m c main_arg1 (by decide)) (ix2 n k)
  · funext n; exact E1_main_v0 m c n
  · funext n; exact E1_main_v1 m c n
  · funext n; exact E1_main_v2 m c n
  · funext n; exact E1_main_v3 m c n
  · funext n; exact E1_main_v4 m c n

theorem res2_value (c : Dev nD) (r : Fin 8192) (k : Fin 4096) :
    (res2 m c : S8192x4096.Idx → EReal) (ix2 r k) = Cert.Spec.sg (Cert.Spec.layer (fun r k => Cert.Spec.sg (Cert.Spec.layer (fun r k => Cert.Spec.quant ((m ((c : Thread nD τ).loc main_arg0) : S8192x4096.Idx → EReal) (ix2 r k))) (fun n k => (m ((c : Thread nD τ).loc main_arg1) : S4096x4096.Idx → EReal) (ix2 n k)) (fun n => (m ((c : Thread nD τ).loc main_arg2) : S4096.Idx → EReal) (ix1 n)) (fun n => (m ((c : Thread nD τ).loc main_arg3) : S4096.Idx → EReal) (ix1 n)) (fun n => (m ((c : Thread nD τ).loc main_arg4) : S4096.Idx → EReal) (ix1 n)) (fun n => (m ((c : Thread nD τ).loc main_arg5) : S4096.Idx → EReal) (ix1 n)) (fun n => (m ((c : Thread nD τ).loc main_arg6) : S4096.Idx → EReal) (ix1 n)) r k)) (fun n k => (m ((c : Thread nD τ).loc main_arg7) : S4096x4096.Idx → EReal) (ix2 n k)) (fun n => (m ((c : Thread nD τ).loc main_arg8) : S4096.Idx → EReal) (ix1 n)) (fun n => (m ((c : Thread nD τ).loc main_arg9) : S4096.Idx → EReal) (ix1 n)) (fun n => (m ((c : Thread nD τ).loc main_arg10) : S4096.Idx → EReal) (ix1 n)) (fun n => (m ((c : Thread nD τ).loc main_arg11) : S4096.Idx → EReal) (ix1 n)) (fun n => (m ((c : Thread nD τ).loc main_arg12) : S4096.Idx → EReal) (ix1 n)) r k) := by
  refine (layer1_value (E3 m) c r k).trans (congrArg Cert.Spec.sg (layer_congr ?_ ?_ ?_ ?_ ?_ ?_ ?_ r k))
  · funext r k; exact (congrFun (E3_v5 m c) (ix2 r k)).trans (res1_value m c r k)
  · funext n k; exact congrFun (E3_of m c main_arg7 (by decide) (by decide) (by decide)) (ix2 n k)
  · funext n; exact E3_main_v6 m c n
  · funext n; exact E3_main_v7 m c n
  · funext n; exact E3_main_v8 m c n
  · funext n; exact E3_main_v9 m c n
  · funext n; exact E3_main_v10 m c n

theorem result_eq_net (c : Dev nD) (r : Fin 8192) (n : Fin 1000) :
    (res3 m c : S8192x1000.Idx → EReal) (ix2 r n)
      = Cert.Spec.net (fun r k => (m ((c : Thread nD τ).loc main_arg0) : S8192x4096.Idx → EReal) (ix2 r k))
          (fun n k => (m ((c : Thread nD τ).loc main_arg1) : S4096x4096.Idx → EReal) (ix2 n k))
          (fun n => (m ((c : Thread nD τ).loc main_arg2) : S4096.Idx → EReal) (ix1 n)) (fun n => (m ((c : Thread nD τ).loc main_arg3) : S4096.Idx → EReal) (ix1 n)) (fun n => (m ((c : Thread nD τ).loc main_arg4) : S4096.Idx → EReal) (ix1 n)) (fun n => (m ((c : Thread nD τ).loc main_arg5) : S4096.Idx → EReal) (ix1 n)) (fun n => (m ((c : Thread nD τ).loc main_arg6) : S4096.Idx → EReal) (ix1 n))
          (fun n k => (m ((c : Thread nD τ).loc main_arg7) : S4096x4096.Idx → EReal) (ix2 n k))
          (fun n => (m ((c : Thread nD τ).loc main_arg8) : S4096.Idx → EReal) (ix1 n)) (fun n => (m ((c : Thread nD τ).loc main_arg9) : S4096.Idx → EReal) (ix1 n)) (fun n => (m ((c : Thread nD τ).loc main_arg10) : S4096.Idx → EReal) (ix1 n)) (fun n => (m ((c : Thread nD τ).loc main_arg11) : S4096.Idx → EReal) (ix1 n)) (fun n => (m ((c : Thread nD τ).loc main_arg12) : S4096.Idx → EReal) (ix1 n))
          (fun n k => (m ((c : Thread nD τ).loc main_arg13) : S1000x4096.Idx → EReal) (ix2 n k))
          (fun n => (m ((c : Thread nD τ).loc main_arg14) : S1000.Idx → EReal) (ix1 n)) (fun n => (m ((c : Thread nD τ).loc main_arg15) : S1000.Idx → EReal) (ix1 n)) (fun n => (m ((c : Thread nD τ).loc main_arg16) : S1000.Idx → EReal) (ix1 n)) (fun n => (m ((c : Thread nD τ).loc main_arg17) : S1000.Idx → EReal) (ix1 n)) (fun n => (m ((c : Thread nD τ).loc main_arg18) : S1000.Idx → EReal) (ix1 n)) r n := by
  refine (layer2_value (E5 m) c r n).trans (layer_congr ?_ ?_ ?_ ?_ ?_ ?_ ?_ r n)
  · funext r k; exact (congrFun (E5_v11 m c) (ix2 r k)).trans (res2_value m c r k)
  · funext n k; exact congrFun (E5_of m c main_arg13 (by decide) (by decide) (by decide) (by decide) (by decide)) (ix2 n k)
  · funext n; exact E5_main_v12 m c n
  · funext n; exact E5_main_v13 m c n
  · funext n; exact E5_main_v14 m c n
  · funext n; exact E5_main_v15 m c n
  · funext n; exact E5_main_v16 m c n

end Cert.KernelIdeal.Gen

end
-- ==== Proof.RefSpec.lean ====
import proofs.«141190_j33311766347902_1_alg».proof.Proof.RefReadP
import proofs.«141190_j33311766347902_1_alg».proof.Proof.Spec

noncomputable section

namespace Cert.ReferenceIdeal.RefSpec

open Cert.ReferenceIdeal Cert.ReferenceIdeal.Gen Cert.ReferenceIdeal.ReadP Idealize.ShloMosaic Idealize.ShloMosaic.ValueIdx

variable (x0 : FVec Ideal S8192x4096 .f32) (x1 : FVec Ideal S4096x4096 .f32) (x2 x3 x4 x5 x6 : FVec Ideal S4096 .f32)
  (x7 : FVec Ideal S4096x4096 .f32) (x8 x9 x10 x11 x12 : FVec Ideal S4096 .f32)
  (x13 : FVec Ideal S1000x4096 .f32) (x14 x15 x16 x17 x18 : FVec Ideal S1000 .f32)

theorem bias1 (r : Fin 8192) (n : Fin 4096) : val_main_v16 (F := Ideal) x2 (ix2 r n) = x2 (ix1 n) := by
  rw [val_main_v16_apply, val_main_v15_apply]
  exact congrArg x2 (funext fun a => match a with | ⟨0, _⟩ => rfl)

theorem mean1 (r : Fin 8192) (n : Fin 4096) : val_main_v19 (F := Ideal) x5 (ix2 r n) = x5 (ix1 n) := by
  rw [val_main_v19_apply, val_main_v18_apply]
  exact congrArg x5 (funext fun a => match a with | ⟨0, _⟩ => rfl)

theorem shift1 (r : Fin 8192) (n : Fin 4096) : val_main_v29 (F := Ideal) x4 (ix2 r n) = x4 (ix1 n) := by
  rw [val_main_v29_apply, val_main_v28_apply]
  exact congrArg x4 (funext fun a => match a with | ⟨0, _⟩ => rfl)

theorem scale1 (r : Fin 8192) (n : Fin 4096) :
    val_main_v26 (F := Ideal) x3 x6 (ix2 r n)
      = Ideal.div (x3 (ix1 n)) (Ideal.sqrt (x6 (ix1 n) + Ideal.ofBits .f32 0x3727C5AC#32)) := by
  have e : idx_main_v25 (idx_main_v26 (ix2 r n)) = ix1 n := funext fun a => match a with | ⟨0, _⟩ => rfl
  rw [val_main_v26_apply, val_main_v25_apply, e, val_main_v24_apply, val_main_v23_apply, val_main_v22_apply,
    val_main_v21_apply, val_main_cst_7_apply]
  rfl

theorem lhs1 (r : Fin 8192) (n k : Fin 4096) :
    val_main_v8 (F := Ideal) x0 (lidx_main_v14 (ix2 r n) k) = Spec.sg (Spec.quant (x0 (ix2 r k))) := by
  have e : lidx_main_v14 (ix2 r n) k = ix2 r k := funext fun a => match a with | ⟨0, _⟩ => rfl | ⟨1, _⟩ => rfl
  rw [e, val_main_v8_apply, val_main_v7_apply, val_main_v6_apply, val_main_v5_apply, val_main_cst_1_apply,
    val_main_call1_v0_apply, val_main_cst_2_apply, val_main_call1_v1_apply, val_main_cst_3_apply,
    val_main_v4_apply, val_main_v3_apply, val_main_cst_0_apply, val_main_v2_apply, val_main_v1_apply,
    val_main_v0_apply, val_main_cst_apply]
  rfl

theorem rhs1 (r : Fin 8192) (n k : Fin 4096) :
    val_main_v13 (F := Ideal) x1 (ridx_main_v14 (ix2 r n) k) = Spec.sg (x1 (ix2 n k)) := by
  have e : idx_main_v13 (ridx_main_v14 (ix2 r n) k) = ix2 n k :=
    funext fun a => match a with | ⟨0, _⟩ => rfl | ⟨1, _⟩ => rfl
  rw [val_main_v13_apply, e, val_main_v12_apply, val_main_v11_apply, val_main_v10_apply, val_main_v9_apply,
    val_main_cst_4_apply, val_main_call2_v0_apply, val_main_cst_5_apply, val_main_call2_v1_apply,
    val_main_cst_6_apply]
  rfl

theorem pre1 (r : Fin 8192) (n : Fin 4096) :
    val_main_v30 (F := Ideal) x0 x1 x2 x3 x4 x5 x6 (ix2 r n)
      = Spec.layer (fun r k => Spec.quant (x0 (ix2 r k))) (fun n k => x1 (ix2 n k)) (fun n => x2 (ix1 n))
          (fun n => x3 (ix1 n)) (fun n => x4 (ix1 n)) (fun n => x5 (ix1 n)) (fun n => x6 (ix1 n)) r n := by
  rw [val_main_v30_apply, val_main_v27_apply, val_main_v20_apply, val_main_v17_apply, val_main_v14_apply,
    bias1, mean1, scale1, shift1]
  simp only [lhs1, rhs1]
  rfl

theorem bias2 (r : Fin 8192) (n : Fin 4096) : val_main_v46 (F := Ideal) x8 (ix2 r n) = x8 (ix1 n) := by
  rw [val_main_v46_apply, val_main_v45_apply]
  exact congrArg x8 (funext fun a => match a with | ⟨0, _⟩ => rfl)

theorem mean2 (r : Fin 8192) (n : Fin 4096) : val_main_v49 (F := Ideal) x11 (ix2 r n) = x11 (ix1 n) := by
  rw [val_main_v49_apply, val_main_v48_apply]
  exact congrArg x11 (funext fun a => match a with | ⟨0, _⟩ => rfl)

theorem shift2 (r : Fin 8192) (n : Fin 4096) : val_main_v59 (F := Ideal) x10 (ix2 r n) = x10 (ix1 n) := by
  rw [val_main_v59_apply, val_main_v58_apply]
  exact congrArg x10 (funext fun a => match a with | ⟨0, _⟩ => rfl)

theorem scale2 (r : Fin 8192) (n : Fin 4096) :
    val_main_v56 (F := Ideal) x9 x12 (ix2 r n)
      = Ideal.div (x9 (ix1 n)) (Ideal.sqrt (x12 (ix1 n) + Ideal.ofBits .f32 0x3727C5AC#32)) := by
  have e : idx_main_v55 (idx_main_v56 (ix2 r n)) = ix1 n := funext fun a => match a with | ⟨0, _⟩ => rfl
  rw [val_main_v56_apply, val_main_v55_apply, e, val_main_v54_apply, val_main_v53_apply, val_main_v52_apply,
    val_main_v51_apply, val_main_cst_17_apply]
  rfl

theorem lhs2 (r : Fin 8192) (n k : Fin 4096) :
    val_main_v38 (F := Ideal) x0 x1 x2 x3 x4 x5 x6 (lidx_main_v44 (ix2 r n) k)
      = Spec.sg (Spec.sg (val_main_v30 (F := Ideal) x0 x1 x2 x3 x4 x5 x6 (ix2 r k))) := by
  have e : lidx_main_v44 (ix2 r n) k = ix2 r k := funext fun a => match a with | ⟨0, _⟩ => rfl | ⟨1, _⟩ => rfl
  rw [e, val_main_v38_apply, val_main_v37_apply, val_main_v36_apply, val_main_v35_apply, val_main_cst_11_apply,
    val_main_call4_v0_apply, val_main_cst_12_apply, val_main_call4_v1_apply, val_main_cst_13_apply,
    val_main_v34_apply, val_main_v33_apply, val_main_v32_apply, val_main_v31_apply, val_main_cst_8_apply,
    val_main_call3_v0_apply, val_main_cst_9_apply, val_main_call3_v1_apply, val_main_cst_10_apply]
  rfl

theorem rhs2 (r : Fin 8192) (n k : Fin 4096) :
    val_main_v43 (F := Ideal) x7 (ridx_main_v44 (ix2 r n) k) = Spec.sg (x7 (ix2 n k)) := by
  have e : idx_main_v43 (ridx_main_v44 (ix2 r n) k) = ix2 n k :=
    funext fun a => match a with | ⟨0, _⟩ => rfl | ⟨1, _⟩ => rfl
  rw [val_main_v43_apply, e, val_main_v42_apply, val_main_v41_apply, val_main_v40_apply, val_main_v39_apply,
    val_main_cst_14_apply, val_main_call5_v0_apply, val_main_cst_15_apply, val_main_call5_v1_apply,
    val_main_cst_16_apply]
  rfl

theorem pre2 (r : Fin 8192) (n : Fin 4096) :
    val_main_v60 (F := Ideal) x0 x1 x2 x3 x4 x5 x6 x7 x8 x9 x10 x11 x12 (ix2 r n)
      = Spec.layer (fun r k => Spec.sg (val_main_v30 (F := Ideal) x0 x1 x2 x3 x4 x5 x6 (ix2 r k)))
          (fun n k => x7 (ix2 n k)) (fun n => x8 (ix1 n)) (fun n => x9 (ix1 n)) (fun n => x10 (ix1 n))
          (fun n => x11 (ix1 n)) (fun n => x12 (ix1 n)) r n := by
  rw [val_main_v60_apply, val_main_v57_apply, val_main_v50_apply, val_main_v47_apply, val_main_v44_apply,
    bias2, mean2, scale2, shift2]
  simp only [lhs2, rhs2]
  rfl

theorem bias3 (r : Fin 8192) (n : Fin 1000) : val_main_v76 (F := Ideal) x14 (ix2 r n) = x14 (ix1 n) := by
  rw [val_main_v76_apply, val_main_v75_apply]
  exact congrArg x14 (funext fun a => match a with | ⟨0, _⟩ => rfl)

theorem mean3 (r : Fin 8192) (n : Fin 1000) : val_main_v79 (F := Ideal) x17 (ix2 r n) = x17 (ix1 n) := by
  rw [val_main_v79_apply, val_main_v78_apply]
  exact congrArg x17 (funext fun a => match a with | ⟨0, _⟩ => rfl)

theorem shift3 (r : Fin 8192) (n : Fin 1000) : val_main_v89 (F := Ideal) x16 (ix2 r n) = x16 (ix1 n) := by
  rw [val_main_v89_apply, val_main_v88_apply]
  exact congrArg x16 (funext fun a => match a with | ⟨0, _⟩ => rfl)

theorem scale3 (r : Fin 8192) (n : Fin 1000) :
    val_main_v86 (F := Ideal) x15 x18 (ix2 r n)
      = Ideal.div (x15 (ix1 n)) (Ideal.sqrt (x18 (ix1 n) + Ideal.ofBits .f32 0x3727C5AC#32)) := by
  have e : idx_main_v85 (idx_main_v86 (ix2 r n)) = ix1 n := funext fun a => match a with | ⟨0, _⟩ => rfl
  rw [val_main_v86_apply, val_main_v85_apply, e, val_main_v84_apply, val_main_v83_apply, val_main_v82_apply,
    val_main_v81_apply, val_main_cst_27_apply]
  rfl

theorem lhs3 (r : Fin 8192) (n : Fin 1000) (k : Fin 4096) :
    val_main_v68 (F := Ideal) x0 x1 x2 x3 x4 x5 x6 x7 x8 x9 x10 x11 x12 (lidx_main_v74 (ix2 r n) k)
      = Spec.sg (Spec.sg (val_main_v60 (F := Ideal) x0 x1 x2 x3 x4 x5 x6 x7 x8 x9 x10 x11 x12 (ix2 r k))) := by
  have e : lidx_main_v74 (ix2 r n) k = ix2 r k := funext fun a => match a with | ⟨0, _⟩ => rfl | ⟨1, _⟩ => rfl
  rw [e, val_main_v68_apply, val_main_v67_apply, val_main_v66_apply, val_main_v65_apply, val_main_cst_21_apply,
    val_main_call7_v0_apply, val_main_cst_22_apply, val_main_call7_v1_apply, val_main_cst_23_apply,
    val_main_v64_apply, val_main_v63_apply, val_main_v62_apply, val_main_v61_apply, val_main_cst_18_apply,
    val_main_call6_v0_apply, val_main_cst_19_apply, val_main_call6_v1_apply, val_main_cst_20_apply]
  rfl

theorem rhs3 (r : Fin 8192) (n : Fin 1000) (k : Fin 4096) :
    val_main_v73 (F := Ideal) x13 (ridx_main_v74 (ix2 r n) k) = Spec.sg (x13 (ix2 n k)) := by
  have e : idx_main_v73 (ridx_main_v74 (ix2 r n) k) = ix2 n k :=
    funext fun a => match a with | ⟨0, _⟩ => rfl | ⟨1, _⟩ => rfl
  rw [val_main_v73_apply, e, val_main_v72_apply, val_main_v71_apply, val_main_v70_apply, val_main_v69_apply,
    val_main_cst_24_apply, val_main_call8_v0_apply, val_main_cst_25_apply, val_main_call8_v1_apply,
    val_main_cst_26_apply]
  rfl

theorem pre3 (r : Fin 8192) (n : Fin 1000) :
    val_main_v90 (F := Ideal) x0 x1 x2 x3 x4 x5 x6 x7 x8 x9 x10 x11 x12 x13 x14 x15 x16 x17 x18 (ix2 r n)
      = Spec.layer
          (fun r k => Spec.sg (val_main_v60 (F := Ideal) x0 x1 x2 x3 x4 x5 x6 x7 x8 x9 x10 x11 x12 (ix2 r k)))
          (fun n k => x13 (ix2 n k)) (fun n => x14 (ix1 n)) (fun n => x15 (ix1 n)) (fun n => x16 (ix1 n))
          (fun n => x17 (ix1 n)) (fun n => x18 (ix1 n)) r n := by
  rw [val_main_v90_apply, val_main_v87_apply, val_main_v80_apply, val_main_v77_apply, val_main_v74_apply,
    bias3, mean3, scale3, shift3]
  simp only [lhs3, rhs3]
  rfl

theorem reference_eq_net (r : Fin 8192) (n : Fin 1000) :
    val_main_v90 (F := Ideal) x0 x1 x2 x3 x4 x5 x6 x7 x8 x9 x10 x11 x12 x13 x14 x15 x16 x17 x18 (ix2 r n)
      = Spec.net (fun r k => x0 (ix2 r k))
          (fun n k => x1 (ix2 n k)) (fun n => x2 (ix1 n)) (fun n => x3 (ix1 n)) (fun n => x4 (ix1 n))
          (fun n => x5 (ix1 n)) (fun n => x6 (ix1 n))
          (fun n k => x7 (ix2 n k)) (fun n => x8 (ix1 n)) (fun n => x9 (ix1 n)) (fun n => x10 (ix1 n))
          (fun n => x11 (ix1 n)) (fun n => x12 (ix1 n))
          (fun n k => x13 (ix2 n k)) (fun n => x14 (ix1 n)) (fun n => x15 (ix1 n)) (fun n => x16 (ix1 n))
          (fun n => x17 (ix1 n)) (fun n => x18 (ix1 n)) r n := by
  rw [pre3]
  unfold Spec.net
  simp only [pre2, pre1]

end Cert.ReferenceIdeal.RefSpec

end
-- ==== Proof.lean ====
import proofs.«141190_j33311766347902_1_alg».proof.Defs
import proofs.«141190_j33311766347902_1_alg».proof.Proof.Gen.Kernel
import proofs.«141190_j33311766347902_1_alg».proof.Proof.Gen.KernelIdeal
import proofs.«141190_j33311766347902_1_alg».proof.Proof.Gen.ReferenceIdeal
import proofs.«141190_j33311766347902_1_alg».proof.Proof.Gen.Pre_finite_inputs
import proofs.«141190_j33311766347902_1_alg».proof.Proof.K.Regions
import proofs.«141190_j33311766347902_1_alg».proof.Proof.KI.Regions
import proofs.«141190_j33311766347902_1_alg».proof.Proof.KI.Bridge
import proofs.«141190_j33311766347902_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => (h c).2) (Cert.Kernel.Gen.run_value (F := Bits) m ρ)

theorem frame_ki : Cert.frame_KernelIdeal := fun m ρ _ =>
  (θ_run Cert.KernelIdeal.defs _ _).mono (fun _ h c => (h c).2) (Cert.KernelIdeal.Gen.run_value (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.res3 m c, ?_, ?_⟩
  · exact Cert.KernelIdeal.Gen.run_value (F := Ideal) m ρ
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v90_eq]
    funext i
    obtain ⟨r, n, rfl⟩ : ∃ (r : Fin 8192) (n : Fin 1000), i = ix2 r n := ⟨i 0, i 1, eq_ix2 i⟩
    rw [Cert.ReferenceIdeal.RefSpec.reference_eq_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact (Cert.KernelIdeal.Gen.result_eq_net m c r n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
